-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x4096 .f32) (main_arg5 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2048x4096 .f32) (main_arg1 : FVec F S4096x4096 .f32) (main_arg2 : FVec F S4096x4096 .f32) (main_arg3 : FVec F S4096x4096 .f32) (main_arg4 : FVec F S4096x4096 .f32) (main_arg5 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S1024x512 : Shape := ⟨2, ![1024, 512]⟩
abbrev S1024x1024 : Shape := ⟨2, ![1024, 1024]⟩
abbrev S512x1024 : Shape := ⟨2, ![512, 1024]⟩
abbrev S1024 : Shape := ⟨1, ![1024]⟩
abbrev S1024x1 : Shape := ⟨2, ![1024, 1]⟩

abbrev nBuf : Space → Nat
  | .hbm => 10
  | .vmem => 30
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x512, .f32⟩
  | .local _ .vmem, ⟨15, _⟩ => ⟨S1024x512, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x512, .f32⟩
  | .local _ .vmem, ⟨22, _⟩ => ⟨S1024x512, .f32⟩
  | .local _ .vmem, ⟨23, _⟩ => ⟨S512x1024, .f32⟩
  | .local _ .vmem, ⟨24, _⟩ => ⟨S512x1024, .f32⟩
  | .local _ .vmem, ⟨25, _⟩ => ⟨S1024, .f32⟩
  | .local _ .vmem, ⟨26, _⟩ => ⟨S1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 8], ![false, false, false]⟩

def k2_cond2 (i : grid2.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 8], ![false, false, false]⟩

def k3_cond2 (i : grid3.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  transposes_S1024x1024_p1_0_S1024x1024 : S1024x1024.Transposes [1, 0] S1024x1024
  dot_S1024x512_S1024x512_S1024x1024_1_1_0_0_n_n_wf : DotDims.WF S1024x512 S1024x512 S1024x1024 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x4096.size a
  hwx0_1 : ∀ i : grid0.Coords, EltTy.bits .f32 = 32 ∨ (Rect.block (s := S2048x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x2048.size a
  hwx0_2 : ∀ i : grid0.Coords, EltTy.bits .f32 = 32 ∨ (Rect.block (s := S4096x2048) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x2048.size a
  hwx1_1 : ∀ i : grid1.Coords, EltTy.bits .f32 = 32 ∨ (Rect.block (s := S4096x2048) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x2048.size a
  hwx1_2 : ∀ i : grid1.Coords, EltTy.bits .f32 = 32 ∨ (Rect.block (s := S4096x2048) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x2048.size a
  hwx2_1 : ∀ i : grid2.Coords, EltTy.bits .f32 = 32 ∨ (Rect.block (s := S4096x2048) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x2048.size a
  hwx2_2 : ∀ i : grid2.Coords, EltTy.bits .f32 = 32 ∨ (Rect.block (s := S4096x2048) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x4096.size a
  hwx3_0 : ∀ i : grid3.Coords, EltTy.bits .f32 = 32 ∨ (Rect.block (s := S4096x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x2048.size a
  hwx3_1 : ∀ i : grid3.Coords, EltTy.bits .f32 = 32 ∨ (Rect.block (s := S4096x2048) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S4096.size a
  hwx3_2 : ∀ i : grid3.Coords, EltTy.bits .f32 = 32 ∨ (Rect.block (s := S4096) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S2048x4096.size a
  hwx3_3 : ∀ i : grid3.Coords, EltTy.bits .f32 = 32 ∨ (Rect.block (s := S2048x4096) S1024x1024.size (cc3_transform_3 i) (hinb3_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg1) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S4096x2048 : Shape := ⟨2, ![4096, 2048]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S2048x4096, .f32⟩
  | .hbm, ⟨12, _⟩ => ⟨S1x4096, .f32⟩
  | .hbm, ⟨13, _⟩ => ⟨S2048x4096, .f32⟩
  | .hbm, ⟨14, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  transposes_S2048x4096_S4096x2048_1_0 : S2048x4096.Transposes [1, 0] S4096x2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S4096x4096_S4096x2048_S4096x2048_1_0_0_1_n_n_wf : DotDims.WF S4096x4096 S4096x2048 S4096x2048 [1] [0] [0] [1] [] []

variable [Facts₀]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.Kernel.R0.Body.lean ====
import proofs.«152358_j83777632076060_1_alg».proof.Proof.Gen.Kernel.Launch
import proofs.«152358_j83777632076060_1_alg».proof.Proof.Gen.Kernel.Skeleton
import proofs.«152358_j83777632076060_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- First piece of the contracted axis. -/
abbrev condZ (i : grid0.Coords) : Prop :=
  (Scalar.cmpi .ne (Scalar.extui (Scalar.cmpi .eq (BitVec.ofNat 32 (i 2).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- Last piece of the contracted axis. -/
abbrev condL (i : grid0.Coords) : Prop := k0_cond2 i = 1#1
theorem hcondL : ∀ t : Fin cfg0.N, condL (grid0.coords t) ↔ t.val % 8 = 7 :=
  (by decide +kernel : ∀ t : Fin grid0.N, condL (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬t.val % 8 = 7 → cfg0.idle 2 (grid0.coords t) = true := by decide +kernel
theorem noFlush2 : ∀ t : Fin cfg0.N, ¬t.val % 8 = 7 → (cfg0.win 2).flush t = false := by decide +kernel
theorem live2 : ∀ t : Fin cfg0.N, t.val % 8 = 7 → cfg0.idle 2 (grid0.coords t) = false := by decide +kernel

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The accumulator. -/
abbrev scM : Memref sig .tc .vmem S1024x1024 .f32 := Memref.whole cc0_scratch0

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop(iprop((∃ d, owns (c : Thread nD τ) scM fullShare d)) ∗ others c) ∗ (∃ r, prngReg c r)) := by
  unfold Pipeline.ΦA
  rw [Pipeline.scopedRest_split_of_list spec0 c [cc0_scratch0] (by decide) (by decide)]
  simp only [scM, owns_whole]; try rfl

theorem hz : (![0, 0] : Fin 2 → Nat) = fun _ => 0 := funext fun a => by fin_cases a <;> rfl

variable (c : Dev nD) (i : grid0.Coords) (a3 : Memref sig .tc .vmem S1024x512 .f32) (h3 : a3.IsWhole)
  (a4 : Memref sig .tc .vmem S1024x512 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S1024x512 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k0_pay2 x0 x1 (if condZ i then k0_pay1 else xs) else xi)
            ∗ owns (c : Thread nD τ) a6 fullShare (k0_pay2 x0 x1 (if condZ i then k0_pay1 else xs))) -∗ K ⟨⟩))
      ⊢ wp frame (wpE (defs₀ (F := F)) Variants.none c none) E (cc0__stage1_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc0__stage1_kernel_eq_skeleton]; unfold cc0__stage1_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S1024x512) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S1024x512) hz, View.ld_unit_zero (S := S1024x1024) hz]

end Cert.Kernel.R0

end
-- ==== Proof.Kernel.R0.Frame.lean ====
import proofs.«152358_j83777632076060_1_alg».proof.Proof.Kernel.R0.Body

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`, by recursion on `n`. -/
def acc (c : Dev nD) : (n : ℕ) → n < cfg0.N → Vec F S1024x1024 .f32
  | 0, h => k0_pay2 (iblk V c 0 ⟨0, h⟩) (iblk V c 1 ⟨0, h⟩) k0_pay1
  | n + 1, h => k0_pay2 (iblk V c 0 ⟨n + 1, h⟩) (iblk V c 1 ⟨n + 1, h⟩)
      (if (n + 1) % 8 = 0 then k0_pay1 else acc c n (Nat.lt_of_succ_lt h))

theorem acc_first (c : Dev nD) (t : Fin cfg0.N) (h0 : t.val % 8 = 0) :
    acc V c t.val t.isLt = k0_pay2 (iblk V c 0 t) (iblk V c 1 t) k0_pay1 := by
  obtain ⟨_ | n, hn⟩ := t
  · rfl
  · exact congrArg _ (if_pos h0)

theorem acc_next (c : Dev nD) (t : Fin cfg0.N) (h0 : ¬t.val % 8 = 0) :
    acc V c t.val t.isLt
      = k0_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg0.N → sProp 𝕄
  | 0, _ => Pipeline.ΦA spec0 c
  | n + 1, hn => iprop(iprop(iprop(owns (c : Thread nD τ) scM fullShare (acc V c n hn)) ∗ others c) ∗ (∃ r, prngReg c r))

theorem PhiS_pos (c : Dev nD) (n : ℕ) (h : n ≤ cfg0.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := rfl

theorem before0 (c : Dev nD) (t : Fin cfg0.N) (d) : (dat V c).before 0 t d = iblk V c 0 t :=
  ((dat V c).before_in_eq_fetched 0 rfl (fun _ => rfl) (fun _ _ _ => rfl) (fun _ => rfl) t d).trans rfl
theorem before1 (c : Dev nD) (t : Fin cfg0.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg0.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec0 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg0.N) (xs : Vec F S1024x1024 .f32)
    (hx : ¬t.val % 8 = 0 → xs = acc V c (t.val - 1) (Nat.lt_of_le_of_lt (Nat.sub_le _ _) t.isLt)) :
    k0_pay2 (iblk V c 0 t) (iblk V c 1 t) (if condZ (grid0.coords t) then k0_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg0.N) (d) :
    owns (c : Thread nD τ) (ms2 t) fullShare (if condL (grid0.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg0.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt0 t) (fun _ => bodyPost V c t) := by
  unfold bodyPost bodyAt0
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid0.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg0.N) :
    bodyPre V c t ⊢ wp frame (wpE (defs₀ (F := F)) Variants.none c none) Set.univ (bodyAt0 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W0, bigSep_W0]
  exact sound_body V c t

theorem hout (c : Dev nD) : (dat V c).Φ (Fin.last cfg0.N) ⊢ Pipeline.ΦA spec0 c := by
  rw [PhiA_eq]; exact Phi_out V c _

end Cert.Kernel.R0

end
-- ==== Proof.Kernel.R1.Body.lean ====
import proofs.«152358_j83777632076060_1_alg».proof.Proof.Gen.Kernel.Launch
import proofs.«152358_j83777632076060_1_alg».proof.Proof.Gen.Kernel.Skeleton
import proofs.«152358_j83777632076060_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- First piece of the contracted axis. -/
abbrev condZ (i : grid1.Coords) : Prop :=
  (Scalar.cmpi .ne (Scalar.extui (Scalar.cmpi .eq (BitVec.ofNat 32 (i 2).val) 0#32)) 0#32) = 1#1
theorem hcondZ : ∀ t : Fin cfg1.N, condZ (grid1.coords t) ↔ t.val % 8 = 0 :=
  (by decide +kernel : ∀ t : Fin grid1.N, condZ (grid1.coords t) ↔ t.val % 8 = 0)

/-- Last piece of the contracted axis. -/
abbrev condL (i : grid1.Coords) : Prop := k1_cond2 i = 1#1
theorem hcondL : ∀ t : Fin cfg1.N, condL (grid1.coords t) ↔ t.val % 8 = 7 :=
  (by decide +kernel : ∀ t : Fin grid1.N, condL (grid1.coords t) ↔ t.val % 8 = 7)

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬t.val % 8 = 7 → cfg1.idle 2 (grid1.coords t) = true := by decide +kernel
theorem noFlush2 : ∀ t : Fin cfg1.N, ¬t.val % 8 = 7 → (cfg1.win 2).flush t = false := by decide +kernel
theorem live2 : ∀ t : Fin cfg1.N, t.val % 8 = 7 → cfg1.idle 2 (grid1.coords t) = false := by decide +kernel

abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
/-- The accumulator. -/
abbrev scM : Memref sig .tc .vmem S1024x1024 .f32 := Memref.whole cc1_scratch0

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop(iprop((∃ d, owns (c : Thread nD τ) scM fullShare d)) ∗ others c) ∗ (∃ r, prngReg c r)) := by
  unfold Pipeline.ΦA
  rw [Pipeline.scopedRest_split_of_list spec1 c [cc1_scratch0] (by decide) (by decide)]
  simp only [scM, owns_whole]; try rfl

theorem hz : (![0, 0] : Fin 2 → Nat) = fun _ => 0 := funext fun a => by fin_cases a <;> rfl

variable (c : Dev nD) (i : grid1.Coords) (a3 : Memref sig .tc .vmem S1024x512 .f32) (h3 : a3.IsWhole)
  (a4 : Memref sig .tc .vmem S512x1024 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S512x1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k1_pay2 x0 x1 (if condZ i then k1_pay1 else xs) else xi)
            ∗ owns (c : Thread nD τ) a6 fullShare (k1_pay2 x0 x1 (if condZ i then k1_pay1 else xs))) -∗ K ⟨⟩))
      ⊢ wp frame (wpE (defs₀ (F := F)) Variants.none c none) E (cc1__stage_mid_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc1__stage_mid_kernel_eq_skeleton]; unfold cc1__stage_mid_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S512x1024) hz, View.ld_unit_zero (S := S1024x1024) hz]

end Cert.Kernel.R1

end
-- ==== Proof.Kernel.R1.Frame.lean ====
import proofs.«152358_j83777632076060_1_alg».proof.Proof.Kernel.R1.Body

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`, by recursion on `n`. -/
def acc (c : Dev nD) : (n : ℕ) → n < cfg1.N → Vec F S1024x1024 .f32
  | 0, h => k1_pay2 (iblk V c 0 ⟨0, h⟩) (iblk V c 1 ⟨0, h⟩) k1_pay1
  | n + 1, h => k1_pay2 (iblk V c 0 ⟨n + 1, h⟩) (iblk V c 1 ⟨n + 1, h⟩)
      (if (n + 1) % 8 = 0 then k1_pay1 else acc c n (Nat.lt_of_succ_lt h))

theorem acc_first (c : Dev nD) (t : Fin cfg1.N) (h0 : t.val % 8 = 0) :
    acc V c t.val t.isLt = k1_pay2 (iblk V c 0 t) (iblk V c 1 t) k1_pay1 := by
  obtain ⟨_ | n, hn⟩ := t
  · rfl
  · exact congrArg _ (if_pos h0)

theorem acc_next (c : Dev nD) (t : Fin cfg1.N) (h0 : ¬t.val % 8 = 0) :
    acc V c t.val t.isLt
      = k1_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg1.N → sProp 𝕄
  | 0, _ => Pipeline.ΦA spec1 c
  | n + 1, hn => iprop(iprop(iprop(owns (c : Thread nD τ) scM fullShare (acc V c n hn)) ∗ others c) ∗ (∃ r, prngReg c r))

theorem PhiS_pos (c : Dev nD) (n : ℕ) (h : n ≤ cfg1.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := rfl

theorem before0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1 (c : Dev nD) (t : Fin cfg1.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg1.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec1 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg1.N) (xs : Vec F S1024x1024 .f32)
    (hx : ¬t.val % 8 = 0 → xs = acc V c (t.val - 1) (Nat.lt_of_le_of_lt (Nat.sub_le _ _) t.isLt)) :
    k1_pay2 (iblk V c 0 t) (iblk V c 1 t) (if condZ (grid1.coords t) then k1_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg1.N) (d) :
    owns (c : Thread nD τ) (ms2 t) fullShare (if condL (grid1.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg1.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt1 t) (fun _ => bodyPost V c t) := by
  unfold bodyPost bodyAt1
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid1.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg1.N) :
    bodyPre V c t ⊢ wp frame (wpE (defs₀ (F := F)) Variants.none c none) Set.univ (bodyAt1 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W1, bigSep_W1]
  exact sound_body V c t

theorem hout (c : Dev nD) : (dat V c).Φ (Fin.last cfg1.N) ⊢ Pipeline.ΦA spec1 c := by
  rw [PhiA_eq]; exact Phi_out V c _

end Cert.Kernel.R1

end
-- ==== Proof.Kernel.R2.Body.lean ====
import proofs.«152358_j83777632076060_1_alg».proof.Proof.Gen.Kernel.Launch
import proofs.«152358_j83777632076060_1_alg».proof.Proof.Gen.Kernel.Skeleton
import proofs.«152358_j83777632076060_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- First piece of the contracted axis. -/
abbrev condZ (i : grid2.Coords) : Prop :=
  (Scalar.cmpi .ne (Scalar.extui (Scalar.cmpi .eq (BitVec.ofNat 32 (i 2).val) 0#32)) 0#32) = 1#1
theorem hcondZ : ∀ t : Fin cfg2.N, condZ (grid2.coords t) ↔ t.val % 8 = 0 :=
  (by decide +kernel : ∀ t : Fin grid2.N, condZ (grid2.coords t) ↔ t.val % 8 = 0)

/-- Last piece of the contracted axis. -/
abbrev condL (i : grid2.Coords) : Prop := k2_cond2 i = 1#1
theorem hcondL : ∀ t : Fin cfg2.N, condL (grid2.coords t) ↔ t.val % 8 = 7 :=
  (by decide +kernel : ∀ t : Fin grid2.N, condL (grid2.coords t) ↔ t.val % 8 = 7)

theorem live0 : ∀ t : Fin cfg2.N, cfg2.idle 0 (grid2.coords t) = false := by decide +kernel
theorem live1 : ∀ t : Fin cfg2.N, cfg2.idle 1 (grid2.coords t) = false := by decide +kernel
theorem idle2 : ∀ t : Fin cfg2.N, ¬t.val % 8 = 7 → cfg2.idle 2 (grid2.coords t) = true := by decide +kernel
theorem noFlush2 : ∀ t : Fin cfg2.N, ¬t.val % 8 = 7 → (cfg2.win 2).flush t = false := by decide +kernel
theorem live2 : ∀ t : Fin cfg2.N, t.val % 8 = 7 → cfg2.idle 2 (grid2.coords t) = false := by decide +kernel

abbrev ms0 (t : Fin cfg2.N) : Memref sig .tc .vmem S1024x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x1024 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1024 .f32 := win2_2.stage (cfg2.slots t 2)
abbrev hs2 (t : Fin cfg2.N) : (ms2 t).IsWhole := hstage2_2 ((cfg2.slots t 2).cast nbuf2_2)
/-- The accumulator. -/
abbrev scM : Memref sig .tc .vmem S1024x1024 .f32 := Memref.whole cc2_scratch0

abbrev others (c : Dev nD) : sProp 𝕄 :=
  Pipeline.scopedRestBut (Ix := Unit) (Name := ℕ) (U := UR sig nD τ) (Lvl := ℕ) (Val := Elt F) spec2 c [cc2_scratch0]

theorem PhiA_eq (c : Dev nD) :
    (Pipeline.ΦA spec2 c : sProp 𝕄)
      = iprop(iprop(iprop((∃ d, owns (c : Thread nD τ) scM fullShare d)) ∗ others c) ∗ (∃ r, prngReg c r)) := by
  unfold Pipeline.ΦA
  rw [Pipeline.scopedRest_split_of_list spec2 c [cc2_scratch0] (by decide) (by decide)]
  simp only [scM, owns_whole]; try rfl

theorem hz : (![0, 0] : Fin 2 → Nat) = fun _ => 0 := funext fun a => by fin_cases a <;> rfl

variable (c : Dev nD) (i : grid2.Coords) (a3 : Memref sig .tc .vmem S1024x512 .f32) (h3 : a3.IsWhole)
  (a4 : Memref sig .tc .vmem S512x1024 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S512x1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k2_pay2 x0 x1 (if condZ i then k2_pay1 else xs) else xi)
            ∗ owns (c : Thread nD τ) a6 fullShare (k2_pay2 x0 x1 (if condZ i then k2_pay1 else xs))) -∗ K ⟨⟩))
      ⊢ wp frame (wpE (defs₀ (F := F)) Variants.none c none) E (cc2__stage_mid_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc2__stage_mid_kernel_eq_skeleton]; unfold cc2__stage_mid_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S512x1024) hz, View.ld_unit_zero (S := S1024x1024) hz]

end Cert.Kernel.R2

end
-- ==== Proof.Kernel.R2.Frame.lean ====
import proofs.«152358_j83777632076060_1_alg».proof.Proof.Kernel.R2.Body

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`, by recursion on `n`. -/
def acc (c : Dev nD) : (n : ℕ) → n < cfg2.N → Vec F S1024x1024 .f32
  | 0, h => k2_pay2 (iblk V c 0 ⟨0, h⟩) (iblk V c 1 ⟨0, h⟩) k2_pay1
  | n + 1, h => k2_pay2 (iblk V c 0 ⟨n + 1, h⟩) (iblk V c 1 ⟨n + 1, h⟩)
      (if (n + 1) % 8 = 0 then k2_pay1 else acc c n (Nat.lt_of_succ_lt h))

theorem acc_first (c : Dev nD) (t : Fin cfg2.N) (h0 : t.val % 8 = 0) :
    acc V c t.val t.isLt = k2_pay2 (iblk V c 0 t) (iblk V c 1 t) k2_pay1 := by
  obtain ⟨_ | n, hn⟩ := t
  · rfl
  · exact congrArg _ (if_pos h0)

theorem acc_next (c : Dev nD) (t : Fin cfg2.N) (h0 : ¬t.val % 8 = 0) :
    acc V c t.val t.isLt
      = k2_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg2.N → sProp 𝕄
  | 0, _ => Pipeline.ΦA spec2 c
  | n + 1, hn => iprop(iprop(iprop(owns (c : Thread nD τ) scM fullShare (acc V c n hn)) ∗ others c) ∗ (∃ r, prngReg c r))

theorem PhiS_pos (c : Dev nD) (n : ℕ) (h : n ≤ cfg2.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := rfl

theorem before0 (c : Dev nD) (t : Fin cfg2.N) (d) : (dat V c).before 0 t d = iblk V c 0 t :=
  ((dat V c).before_in_eq_fetched 0 rfl (fun _ => rfl) (fun _ _ _ => rfl) (fun _ => rfl) t d).trans rfl
theorem before1 (c : Dev nD) (t : Fin cfg2.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg2.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec2 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg2.N) (xs : Vec F S1024x1024 .f32)
    (hx : ¬t.val % 8 = 0 → xs = acc V c (t.val - 1) (Nat.lt_of_le_of_lt (Nat.sub_le _ _) t.isLt)) :
    k2_pay2 (iblk V c 0 t) (iblk V c 1 t) (if condZ (grid2.coords t) then k2_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg2.N) (d) :
    owns (c : Thread nD τ) (ms2 t) fullShare (if condL (grid2.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg2.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt2 t) (fun _ => bodyPost V c t) := by
  unfold bodyPost bodyAt2
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid2.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg2.N) :
    bodyPre V c t ⊢ wp frame (wpE (defs₀ (F := F)) Variants.none c none) Set.univ (bodyAt2 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W2, bigSep_W2]
  exact sound_body V c t

theorem hout (c : Dev nD) : (dat V c).Φ (Fin.last cfg2.N) ⊢ Pipeline.ΦA spec2 c := by
  rw [PhiA_eq]; exact Phi_out V c _

end Cert.Kernel.R2

end
-- ==== Proof.Kernel.R3.Body.lean ====
import proofs.«152358_j83777632076060_1_alg».proof.Proof.Gen.Kernel.Launch
import proofs.«152358_j83777632076060_1_alg».proof.Proof.Gen.Kernel.Skeleton
import proofs.«152358_j83777632076060_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- First piece of the contracted axis. -/
abbrev condZ (i : grid3.Coords) : Prop :=
  (Scalar.cmpi .ne (Scalar.extui (Scalar.cmpi .eq (BitVec.ofNat 32 (i 2).val) 0#32)) 0#32) = 1#1
theorem hcondZ : ∀ t : Fin cfg3.N, condZ (grid3.coords t) ↔ t.val % 8 = 0 :=
  (by decide +kernel : ∀ t : Fin grid3.N, condZ (grid3.coords t) ↔ t.val % 8 = 0)

/-- Last piece of the contracted axis. -/
abbrev condL (i : grid3.Coords) : Prop := k3_cond2 i = 1#1
theorem hcondL : ∀ t : Fin cfg3.N, condL (grid3.coords t) ↔ t.val % 8 = 7 :=
  (by decide +kernel : ∀ t : Fin grid3.N, condL (grid3.coords t) ↔ t.val % 8 = 7)

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem idle3 : ∀ t : Fin cfg3.N, ¬t.val % 8 = 7 → cfg3.idle 3 (grid3.coords t) = true := by decide +kernel
theorem noFlush3 : ∀ t : Fin cfg3.N, ¬t.val % 8 = 7 → (cfg3.win 3).flush t = false := by decide +kernel
theorem live3 : ∀ t : Fin cfg3.N, t.val % 8 = 7 → cfg3.idle 3 (grid3.coords t) = false := by decide +kernel

abbrev ms0 (t : Fin cfg3.N) : Memref sig .tc .vmem S1024x512 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S512x1024 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1024 .f32 := win3_3.stage (cfg3.slots t 3)
abbrev hs3 (t : Fin cfg3.N) : (ms3 t).IsWhole := hstage3_3 ((cfg3.slots t 3).cast nbuf3_3)
/-- The accumulator. -/
abbrev scM : Memref sig .tc .vmem S1024x1024 .f32 := Memref.whole cc3_scratch0

abbrev others (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄)
      = iprop(iprop(iprop((∃ d, owns (c : Thread nD τ) scM fullShare d)) ∗ others c) ∗ (∃ r, prngReg c r)) := by
  unfold Pipeline.ΦA
  rw [Pipeline.scopedRest_split_of_list spec3 c [cc3_scratch0] (by decide) (by decide)]
  simp only [scM, owns_whole]; try rfl

theorem hz : (![0, 0] : Fin 2 → Nat) = fun _ => 0 := funext fun a => by fin_cases a <;> rfl
theorem hz1 : (![0] : Fin 1 → Nat) = fun _ => 0 := funext fun a => by fin_cases a <;> rfl

variable (c : Dev nD) (i : grid3.Coords) (a3 : Memref sig .tc .vmem S1024x512 .f32) (h3 : a3.IsWhole)
  (a4 : Memref sig .tc .vmem S512x1024 .f32) (h4 : a4.IsWhole) (a5 : Memref sig .tc .vmem S1024 .f32) (h5 : a5.IsWhole)
  (a6 : Memref sig .tc .vmem S1024x1024 .f32) (h6 : a6.IsWhole) (a7 : Memref sig .tc .vmem S1024x1024 .f32) (h7 : a7.IsWhole)
  (x0 : Vec F S1024x512 .f32) (x1 : Vec F S512x1024 .f32) (x2 : Vec F S1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator plus the bias `x2` down its
    columns, transposed, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare xi ∗ owns (c : Thread nD τ) a7 fullShare xs
        ∗ (iprop(owns (c : Thread nD τ) a3 fullShare x0 ∗ owns (c : Thread nD τ) a4 fullShare x1 ∗ owns (c : Thread nD τ) a5 fullShare x2
            ∗ owns (c : Thread nD τ) a6 fullShare (if condL i then k3_pay3 x2 (k3_pay2 x0 x1 (if condZ i then k3_pay1 else xs)) else xi)
            ∗ owns (c : Thread nD τ) a7 fullShare (k3_pay2 x0 x1 (if condZ i then k3_pay1 else xs))) -∗ K ⟨⟩))
      ⊢ wp frame (wpE (defs₀ (F := F)) Variants.none c none) E (cc3__stage_last_kernel i a3 h3 a4 h4 a5 h5 a6 h6 a7 h7) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc3__stage_last_kernel_eq_skeleton]; unfold cc3__stage_last_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h3.eq_unread hf0; obtain rfl := h4.eq_unread hf1; obtain rfl := h5.eq_unread hf2; obtain rfl := h6.eq_unread hf3; obtain rfl := h7.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr
      swap; · iexact H3
      ipureintro
      first
      | guard_hyp hL : ¬condL i; exact h6.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h5.read_unread, h7.read_unread, View.readCov_unit_zero (S := S1024x1024) _ hz, View.ld_unit_zero (S := S1024) hz1, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h7.read_unread, View.ld_unit_zero (S := S1024x512) hz, View.ld_unit_zero (S := S512x1024) hz, View.ld_unit_zero (S := S1024x1024) hz]

end Cert.Kernel.R3

end
-- ==== Proof.Kernel.R3.Frame.lean ====
import proofs.«152358_j83777632076060_1_alg».proof.Proof.Kernel.R3.Body

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`, by recursion on `n`. -/
def acc (c : Dev nD) : (n : ℕ) → n < cfg3.N → Vec F S1024x1024 .f32
  | 0, h => k3_pay2 (iblk V c 0 ⟨0, h⟩) (iblk V c 1 ⟨0, h⟩) k3_pay1
  | n + 1, h => k3_pay2 (iblk V c 0 ⟨n + 1, h⟩) (iblk V c 1 ⟨n + 1, h⟩)
      (if (n + 1) % 8 = 0 then k3_pay1 else acc c n (Nat.lt_of_succ_lt h))

theorem acc_first (c : Dev nD) (t : Fin cfg3.N) (h0 : t.val % 8 = 0) :
    acc V c t.val t.isLt = k3_pay2 (iblk V c 0 t) (iblk V c 1 t) k3_pay1 := by
  obtain ⟨_ | n, hn⟩ := t
  · rfl
  · exact congrArg _ (if_pos h0)

theorem acc_next (c : Dev nD) (t : Fin cfg3.N) (h0 : ¬t.val % 8 = 0) :
    acc V c t.val t.isLt
      = k3_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

/-- What the last piece puts into the output block. -/
abbrev outAt (c : Dev nD) (t : Fin cfg3.N) : Vec F S1024x1024 .f32 := k3_pay3 (iblk V c 2 t) (acc V c t.val t.isLt)

def PhiS (c : Dev nD) : (n : ℕ) → n ≤ cfg3.N → sProp 𝕄
  | 0, _ => Pipeline.ΦA spec3 c
  | n + 1, hn => iprop(iprop(iprop(owns (c : Thread nD τ) scM fullShare (acc V c n hn)) ∗ others c) ∗ (∃ r, prngReg c r))

theorem PhiS_pos (c : Dev nD) (n : ℕ) (h : n ≤ cfg3.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := rfl

theorem before0 (c : Dev nD) (t : Fin cfg3.N) (d) : (dat V c).before 0 t d = iblk V c 0 t :=
  ((dat V c).before_in_eq_fetched 0 rfl (fun _ => rfl) (fun _ _ _ => rfl) (fun _ => rfl) t d).trans rfl
theorem before1 (c : Dev nD) (t : Fin cfg3.N) (d) : (dat V c).before 1 t d = iblk V c 1 t :=
  ((dat V c).before_in_eq_fetched 1 rfl (fun _ => rfl) (fun _ _ _ => rfl) (fun _ => rfl) t d).trans rfl
theorem before2 (c : Dev nD) (t : Fin cfg3.N) (d) : (dat V c).before 2 t d = iblk V c 2 t :=
  ((dat V c).before_in_eq_fetched 2 rfl (fun _ => rfl) (fun _ _ _ => rfl) (fun _ => rfl) t d).trans rfl

theorem Phi_out (c : Dev nD) (t : Fin (cfg3.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec3 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg3.N) (xs : Vec F S1024x1024 .f32)
    (hx : ¬t.val % 8 = 0 → xs = acc V c (t.val - 1) (Nat.lt_of_le_of_lt (Nat.sub_le _ _) t.isLt)) :
    k3_pay2 (iblk V c 0 t) (iblk V c 1 t) (if condZ (grid3.coords t) then k3_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves3 (c : Dev nD) (t : Fin cfg3.N) (d) :
    owns (c : Thread nD τ) (ms3 t) fullShare (if condL (grid3.coords t) then outAt V c t else (dat V c).before 3 t d)
      ⊢ (dat V c).leavesExact 3 t := by
  by_cases h1 : t.val % 8 = 7
  · rw [if_pos ((hcondL t).mpr h1), show (dat V c).leavesExact 3 t = owns (c : Thread nD τ) (ms3 t) fullShare (outAt V c t) from by
      unfold Dat.leavesExact; rw [live3 t h1]; rfl]
  · rw [if_neg (fun h => h1 ((hcondL t).mp h)), Dat.leavesExact_idle (dat V c) 3 t (idle3 t h1) (noFlush3 t h1)]
    iintro H; iexists d; iexact H

/-- The body at point `t`, started from accumulator `xs`. -/
theorem close (c : Dev nD) (t : Fin cfg3.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt3 t) (fun _ => bodyPost V c t) := by
  unfold bodyPost bodyAt3
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl,
    show (dat V c).leavesExact 2 t = owns (c : Thread nD τ) (ms2 t) fullShare (iblk V c 2 t) from by
      unfold Dat.leavesExact; rw [live2 t]; rfl, ← acc_eq V c t xs hx]
  simp only [before0, before1, before2]
  iintro ⟨⟨⟨HS, Hoth⟩, Hg⟩, Ho, ⟨%d0, H0⟩, ⟨%d1, H1⟩, ⟨%d2, H2⟩, ⟨%d3, H3⟩⟩
  iapply (run c (grid3.coords t) (ms0 t) (hs0 t) (ms1 t) (hs1 t) (ms2 t) (hs2 t) (ms3 t) (hs3 t) scM (Memref.isWhole_whole _)
    (iblk V c 0 t) (iblk V c 1 t) (iblk V c 2 t) xs _
    (fun h => by have := (hcondZ t).mp h.1; have := (hcondL t).mp h.2; omega) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  isplitl [H2]; · iexact H2
  iapply (leaves3 V c t d3)
  unfold outAt; rw [← acc_eq V c t xs hx]; iexact H3

/-- The body at every point. -/
theorem sound_body (c : Dev nD) (t : Fin cfg3.N) :
    bodyPre V c t ⊢ wp frame (wpE (defs₀ (F := F)) Variants.none c none) Set.univ (bodyAt3 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W3, bigSep_W3]
  exact sound_body V c t

theorem hout (c : Dev nD) : (dat V c).Φ (Fin.last cfg3.N) ⊢ Pipeline.ΦA spec3 c := by
  rw [PhiA_eq]; exact Phi_out V c _

end Cert.Kernel.R3

end
-- ==== Proof.Kernel.Asm.lean ====
import proofs.«152358_j83777632076060_1_alg».proof.Proof.Kernel.R0.Frame
import proofs.«152358_j83777632076060_1_alg».proof.Proof.Kernel.R1.Frame
import proofs.«152358_j83777632076060_1_alg».proof.Proof.Kernel.R2.Frame
import proofs.«152358_j83777632076060_1_alg».proof.Proof.Kernel.R3.Frame
import proofs.«152358_j83777632076060_1_alg».proof.Proof.Gen.Kernel.Regions
import Idealize.ShloMosaic.Lib.Pipeline.Frame
import Idealize.ShloMosaic.Lib.Pipeline.Regions
import Idealize.ShloMosaic.Lib.Pipeline.RegionsLoop

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the arrays along the chain of stages: a stage changes only its own output. -/
abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

def W2 (c : Dev nD) : Valuation τ sig (Elt F) :=
  Pipeline.withArrays spec1 c (W1 m c) fun w => (R1.dat (V1 m) c).arrAt w cfg1.N
theorem W2_arr (c : Dev nD) (w : Fin cfg1.W) :
    W2 m c (Proc.devRef .tc (Pipeline.arrRef spec1 w)) = (R1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

def W3 (c : Dev nD) : Valuation τ sig (Elt F) :=
  Pipeline.withArrays spec2 c (W2 m c) fun w => (R2.dat (V2 m) c).arrAt w cfg2.N
theorem W3_arr (c : Dev nD) (w : Fin cfg2.W) :
    W3 m c (Proc.devRef .tc (Pipeline.arrRef spec2 w)) = (R2.dat (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b

def W4 (c : Dev nD) : Valuation τ sig (Elt F) :=
  Pipeline.withArrays spec3 c (W3 m c) fun w => (R3.dat (V3 m) c).arrAt w cfg3.N
theorem W4_arr (c : Dev nD) (w : Fin cfg3.W) :
    W4 m c (Proc.devRef .tc (Pipeline.arrRef spec3 w)) = (R3.dat (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b

/-- No stage writes an argument array, so each ends as it began. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 1).trans (((R0.dat (V0 m) c).arrAt_in 1 rfl _).trans (R0.A_eq (V0 m) c 1))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((R3.dat (V3 m) c).arrAt_in 0 rfl _).trans (R3.A_eq (V3 m) c 0))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((R2.dat (V2 m) c).arrAt_in 0 rfl _).trans (R2.A_eq (V2 m) c 0))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 0).trans (((R1.dat (V1 m) c).arrAt_in 0 rfl _).trans (R1.A_eq (V1 m) c 0))
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := (W1_arr m c 0).trans (((R0.dat (V0 m) c).arrAt_in 0 rfl _).trans (R0.A_eq (V0 m) c 0))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 2).trans (((R3.dat (V3 m) c).arrAt_in 2 rfl _).trans (R3.A_eq (V3 m) c 2))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

def pdats : (p : Fin 4) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V1 m) c
  | ⟨2, _⟩ => fun c => R2.dat (V2 m) c
  | ⟨3, _⟩ => fun c => R3.dat (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- One stage takes the contents from `W` to `W'`; the four stages differ only in their arrays and their body. -/
def seg (p : Fin 4) (hw : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hst : ∀ (w : Fin (Pipeline.pin (pcfgs (F := F)) adm p).W) (s : Fin ((Pipeline.pin (pcfgs (F := F)) adm p).spec w).nbuf), (((Pipeline.pin (pcfgs (F := F)) adm p).spec w).stage s).IsWhole)
    (harr : ∀ w, ((Pipeline.pin (pcfgs (F := F)) adm p).spec w).arr.IsWhole)
    (W W' : Dev nD → Valuation τ sig (Elt F))
    (hq : ∀ c w, (pdats m p c).share w = fullShare) (howed : ∀ c t, (pdats m p c).owed t = 0)
    (hrec : ∀ c, (pdats m p c).recorded 0 = Set.univ)
    (hA : ∀ c w, (pdats m p c).A w = W c (Proc.devRef .tc (Pipeline.arrRef (Pipeline.pin (pcfgs (F := F)) adm p).spec w)))
    (hF : ∀ c w, (pdats m p c).arrAt w (Pipeline.pin (pcfgs (F := F)) adm p).N = W' c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → W' c (Proc.devRef .tc b) = W c (Proc.devRef .tc b))
    (hbody : ∀ c, BodyObligation (pdats m p c) (defs₀ (F := F)) 𝒱₀ () Set.univ)
    (hΦ0 : ∀ c, (pdats m p c).Φ 0 = Pipeline.ΦA (Pipeline.pin (pcfgs (F := F)) adm p).spec c)
    (hΦN : ∀ c, (pdats m p c).Φ (Fin.last (Pipeline.pin (pcfgs (F := F)) adm p).N) ⊢ Pipeline.ΦA (Pipeline.pin (pcfgs (F := F)) adm p).spec c)
    (hpre : ∀ c, (BI.emp : sProp 𝕄) ⊢ Pipeline.prefHeld (pcfgs (F := F) p).pre c (fun _ => fullShare) (adm p).1) :
    Pipeline.RegionSeg (pcfgs (F := F)) adm (pdats m) () defs₀ 𝒱₀ L lv p where
  win := hw.to₀
  block_pos := hpos
  stage_whole := hst
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := by
    rw [Pipeline.ownSems0_none]
    have hsplit := Pipeline.arrays_of_unscopedBufs (p := p) (pcfgs (F := F)) adm (pdats m) hw harr c (hq c) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m) (hq c) (fun b => W c b) (fun b => W' c b) ((pdats m p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  seg m 0 launch0.win launch0.block_pos launch0.stage_whole launch0.arr_whole (W0 m) (W1 m)
    (fun c => (pdats m 0 c).share_full fun _ => rfl) (fun _ _ => rfl) (fun _ => rfl) (fun _ _ => rfl)
    (fun c w => (W1_arr m c w).symm) (fun c b hb => W1_of_ne m c b hb)
    (fun c => R0.body_obligation (V0 m) c) (fun _ => rfl) (fun c => R0.hout (V0 m) c)
    (fun c => by unfold Pipeline.prefHeld; rw [show (Finset.univ : Finset (Fin 0)) = ∅ from rfl, BI.bigSep_empty])

def reg1 : Pipeline.RegionSeg (pcfgs (F := F)) adm (pdats m) () defs₀ 𝒱₀ L lv 1 :=
  seg m 1 launch1.win launch1.block_pos launch1.stage_whole launch1.arr_whole (W1 m) (W2 m)
    (fun c => (pdats m 1 c).share_full fun _ => rfl) (fun _ _ => rfl) (fun _ => rfl) (fun _ _ => rfl)
    (fun c w => (W2_arr m c w).symm) (fun c b hb => W2_of_ne m c b hb)
    (fun c => R1.body_obligation (V1 m) c) (fun _ => rfl) (fun c => R1.hout (V1 m) c)
    (fun c => by unfold Pipeline.prefHeld; rw [show (Finset.univ : Finset (Fin 0)) = ∅ from rfl, BI.bigSep_empty])

def reg2 : Pipeline.RegionSeg (pcfgs (F := F)) adm (pdats m) () defs₀ 𝒱₀ L lv 2 :=
  seg m 2 launch2.win launch2.block_pos launch2.stage_whole launch2.arr_whole (W2 m) (W3 m)
    (fun c => (pdats m 2 c).share_full fun _ => rfl) (fun _ _ => rfl) (fun _ => rfl) (fun _ _ => rfl)
    (fun c w => (W3_arr m c w).symm) (fun c b hb => W3_of_ne m c b hb)
    (fun c => R2.body_obligation (V2 m) c) (fun _ => rfl) (fun c => R2.hout (V2 m) c)
    (fun c => by unfold Pipeline.prefHeld; rw [show (Finset.univ : Finset (Fin 0)) = ∅ from rfl, BI.bigSep_empty])

def reg3 : Pipeline.RegionSeg (pcfgs (F := F)) adm (pdats m) () defs₀ 𝒱₀ L lv 3 :=
  seg m 3 launch3.win launch3.block_pos launch3.stage_whole launch3.arr_whole (W3 m) (W4 m)
    (fun c => (pdats m 3 c).share_full fun _ => rfl) (fun _ _ => rfl) (fun _ => rfl) (fun _ _ => rfl)
    (fun c w => (W4_arr m c w).symm) (fun c b hb => W4_of_ne m c b hb)
    (fun c => R3.body_obligation (V3 m) c) (fun _ => rfl) (fun c => R3.hout (V3 m) c)
    (fun c => by unfold Pipeline.prefHeld; rw [show (Finset.univ : Finset (Fin 0)) = ∅ from rfl, BI.bigSep_empty])

theorem W4_main_v3 (c : Dev nD) : W4 m c (Proc.devRef .tc main_v3) = (R3.dat (V3 m) c).arrAt 3 cfg3.N := W4_arr m c 3

set_option backward.isDefEq.respectTransparency.types false in
/-- All executions of the whole program end, with every array at the last contents of the chain. -/
theorem main_run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main
    [.region (reg0 m), .region (reg1 m), .region (reg2 m), .region (reg3 m)]
    (fun c Q => by rw [main_segs adm (pdats m) () 𝒱₀ L lv (reg0 m) (reg1 m) (reg2 m) (reg3 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (main_run m ρ)

/-- The same, with the result array's contents named. -/
theorem run_result : θ_run defs (onTc (τ := τ) (main (F := F))) ⟨m, fun _ => 0, ρ⟩ (fun r => ∀ c : Dev nD,
      r.2.mem ((c.tc : Thread nD τ).loc main_v3) = (R3.dat (V3 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v3 (by decide))).trans (W4_main_v3 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (main_run m ρ)

end Cert.Kernel.Asm

end
-- ==== Proof.KernelIdeal.R0.Body.lean ====
import proofs.«152358_j83777632076060_1_alg».proof.Proof.Gen.KernelIdeal.Launch
import proofs.«152358_j83777632076060_1_alg».proof.Proof.Gen.KernelIdeal.Skeleton
import proofs.«152358_j83777632076060_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- First piece of the contracted axis. -/
abbrev condZ (i : grid0.Coords) : Prop :=
  (Scalar.cmpi .ne (Scalar.extui (Scalar.cmpi .eq (BitVec.ofNat 32 (i 2).val) 0#32)) 0#32) = 1#1
theorem hcondZ : ∀ t : Fin cfg0.N, condZ (grid0.coords t) ↔ t.val % 8 = 0 :=
  (by decide +kernel : ∀ t : Fin grid0.N, condZ (grid0.coords t) ↔ t.val % 8 = 0)

/-- Last piece of the contracted axis. -/
abbrev condL (i : grid0.Coords) : Prop := k0_cond2 i = 1#1
theorem hcondL : ∀ t : Fin cfg0.N, condL (grid0.coords t) ↔ t.val % 8 = 7 :=
  (by decide +kernel : ∀ t : Fin grid0.N, condL (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel
theorem idle2 : ∀ t : Fin cfg0.N, ¬t.val % 8 = 7 → cfg0.idle 2 (grid0.coords t) = true := by decide +kernel
theorem noFlush2 : ∀ t : Fin cfg0.N, ¬t.val % 8 = 7 → (cfg0.win 2).flush t = false := by decide +kernel
theorem live2 : ∀ t : Fin cfg0.N, t.val % 8 = 7 → cfg0.idle 2 (grid0.coords t) = false := by decide +kernel

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1024 .f32 := win0_2.stage (cfg0.slots t 2)
abbrev hs2 (t : Fin cfg0.N) : (ms2 t).IsWhole := hstage0_2 ((cfg0.slots t 2).cast nbuf0_2)
/-- The accumulator. -/
abbrev scM : Memref sig .tc .vmem S1024x1024 .f32 := Memref.whole cc0_scratch0

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(iprop(iprop((∃ d, owns (c : Thread nD τ) scM fullShare d)) ∗ others c) ∗ (∃ r, prngReg c r)) := by
  unfold Pipeline.ΦA
  rw [Pipeline.scopedRest_split_of_list spec0 c [cc0_scratch0] (by decide) (by decide)]
  simp only [scM, owns_whole]; try rfl

theorem hz : (![0, 0] : Fin 2 → Nat) = fun _ => 0 := funext fun a => by fin_cases a <;> rfl

variable (c : Dev nD) (i : grid0.Coords) (a3 : Memref sig .tc .vmem S1024x512 .f32) (h3 : a3.IsWhole)
  (a4 : Memref sig .tc .vmem S1024x512 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S1024x512 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k0_pay2 x0 x1 (if condZ i then k0_pay1 else xs) else xi)
            ∗ owns (c : Thread nD τ) a6 fullShare (k0_pay2 x0 x1 (if condZ i then k0_pay1 else xs))) -∗ K ⟨⟩))
      ⊢ wp frame (wpE (defs₀ (F := F)) Variants.none c none) E (cc0__stage1_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc0__stage1_kernel_eq_skeleton]; unfold cc0__stage1_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S1024x512) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S1024x512) hz, View.ld_unit_zero (S := S1024x1024) hz]

end Cert.KernelIdeal.R0

end
-- ==== Proof.KernelIdeal.R0.Frame.lean ====
import proofs.«152358_j83777632076060_1_alg».proof.Proof.KernelIdeal.R0.Body

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`, by recursion on `n`. -/
def acc (c : Dev nD) : (n : ℕ) → n < cfg0.N → Vec F S1024x1024 .f32
  | 0, h => k0_pay2 (iblk V c 0 ⟨0, h⟩) (iblk V c 1 ⟨0, h⟩) k0_pay1
  | n + 1, h => k0_pay2 (iblk V c 0 ⟨n + 1, h⟩) (iblk V c 1 ⟨n + 1, h⟩)
      (if (n + 1) % 8 = 0 then k0_pay1 else acc c n (Nat.lt_of_succ_lt h))

theorem acc_first (c : Dev nD) (t : Fin cfg0.N) (h0 : t.val % 8 = 0) :
    acc V c t.val t.isLt = k0_pay2 (iblk V c 0 t) (iblk V c 1 t) k0_pay1 := by
  obtain ⟨_ | n, hn⟩ := t
  · rfl
  · exact congrArg _ (if_pos h0)

theorem acc_next (c : Dev nD) (t : Fin cfg0.N) (h0 : ¬t.val % 8 = 0) :
    acc V c t.val t.isLt
      = k0_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg0.N → sProp 𝕄
  | 0, _ => Pipeline.ΦA spec0 c
  | n + 1, hn => iprop(iprop(iprop(owns (c : Thread nD τ) scM fullShare (acc V c n hn)) ∗ others c) ∗ (∃ r, prngReg c r))

theorem PhiS_pos (c : Dev nD) (n : ℕ) (h : n ≤ cfg0.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg0.W) : (dat V c).A w = V c (Pipeline.arrRef spec0 w) := rfl

theorem before0 (c : Dev nD) (t : Fin cfg0.N) (d) : (dat V c).before 0 t d = iblk V c 0 t :=
  ((dat V c).before_in_eq_fetched 0 rfl (fun _ => rfl) (fun _ _ _ => rfl) (fun _ => rfl) t d).trans rfl
theorem before1 (c : Dev nD) (t : Fin cfg0.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg0.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec0 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg0.N) (xs : Vec F S1024x1024 .f32)
    (hx : ¬t.val % 8 = 0 → xs = acc V c (t.val - 1) (Nat.lt_of_le_of_lt (Nat.sub_le _ _) t.isLt)) :
    k0_pay2 (iblk V c 0 t) (iblk V c 1 t) (if condZ (grid0.coords t) then k0_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg0.N) (d) :
    owns (c : Thread nD τ) (ms2 t) fullShare (if condL (grid0.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg0.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt0 t) (fun _ => bodyPost V c t) := by
  unfold bodyPost bodyAt0
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid0.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg0.N) :
    bodyPre V c t ⊢ wp frame (wpE (defs₀ (F := F)) Variants.none c none) Set.univ (bodyAt0 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W0, bigSep_W0]
  exact sound_body V c t

theorem hout (c : Dev nD) : (dat V c).Φ (Fin.last cfg0.N) ⊢ Pipeline.ΦA spec0 c := by
  rw [PhiA_eq]; exact Phi_out V c _

end Cert.KernelIdeal.R0

end
-- ==== Proof.KernelIdeal.R1.Body.lean ====
import proofs.«152358_j83777632076060_1_alg».proof.Proof.Gen.KernelIdeal.Launch
import proofs.«152358_j83777632076060_1_alg».proof.Proof.Gen.KernelIdeal.Skeleton
import proofs.«152358_j83777632076060_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- First piece of the contracted axis. -/
abbrev condZ (i : grid1.Coords) : Prop :=
  (Scalar.cmpi .ne (Scalar.extui (Scalar.cmpi .eq (BitVec.ofNat 32 (i 2).val) 0#32)) 0#32) = 1#1
theorem hcondZ : ∀ t : Fin cfg1.N, condZ (grid1.coords t) ↔ t.val % 8 = 0 :=
  (by decide +kernel : ∀ t : Fin grid1.N, condZ (grid1.coords t) ↔ t.val % 8 = 0)

/-- Last piece of the contracted axis. -/
abbrev condL (i : grid1.Coords) : Prop := k1_cond2 i = 1#1
theorem hcondL : ∀ t : Fin cfg1.N, condL (grid1.coords t) ↔ t.val % 8 = 7 :=
  (by decide +kernel : ∀ t : Fin grid1.N, condL (grid1.coords t) ↔ t.val % 8 = 7)

theorem live0 : ∀ t : Fin cfg1.N, cfg1.idle 0 (grid1.coords t) = false := by decide +kernel
theorem live1 : ∀ t : Fin cfg1.N, cfg1.idle 1 (grid1.coords t) = false := by decide +kernel
theorem idle2 : ∀ t : Fin cfg1.N, ¬t.val % 8 = 7 → cfg1.idle 2 (grid1.coords t) = true := by decide +kernel
theorem noFlush2 : ∀ t : Fin cfg1.N, ¬t.val % 8 = 7 → (cfg1.win 2).flush t = false := by decide +kernel
theorem live2 : ∀ t : Fin cfg1.N, t.val % 8 = 7 → cfg1.idle 2 (grid1.coords t) = false := by decide +kernel

abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1024 .f32 := win1_2.stage (cfg1.slots t 2)
abbrev hs2 (t : Fin cfg1.N) : (ms2 t).IsWhole := hstage1_2 ((cfg1.slots t 2).cast nbuf1_2)
/-- The accumulator. -/
abbrev scM : Memref sig .tc .vmem S1024x1024 .f32 := Memref.whole cc1_scratch0

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop(iprop((∃ d, owns (c : Thread nD τ) scM fullShare d)) ∗ others c) ∗ (∃ r, prngReg c r)) := by
  unfold Pipeline.ΦA
  rw [Pipeline.scopedRest_split_of_list spec1 c [cc1_scratch0] (by decide) (by decide)]
  simp only [scM, owns_whole]; try rfl

theorem hz : (![0, 0] : Fin 2 → Nat) = fun _ => 0 := funext fun a => by fin_cases a <;> rfl

variable (c : Dev nD) (i : grid1.Coords) (a3 : Memref sig .tc .vmem S1024x512 .f32) (h3 : a3.IsWhole)
  (a4 : Memref sig .tc .vmem S512x1024 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S512x1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k1_pay2 x0 x1 (if condZ i then k1_pay1 else xs) else xi)
            ∗ owns (c : Thread nD τ) a6 fullShare (k1_pay2 x0 x1 (if condZ i then k1_pay1 else xs))) -∗ K ⟨⟩))
      ⊢ wp frame (wpE (defs₀ (F := F)) Variants.none c none) E (cc1__stage_mid_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc1__stage_mid_kernel_eq_skeleton]; unfold cc1__stage_mid_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S512x1024) hz, View.ld_unit_zero (S := S1024x1024) hz]

end Cert.KernelIdeal.R1

end
-- ==== Proof.KernelIdeal.R1.Frame.lean ====
import proofs.«152358_j83777632076060_1_alg».proof.Proof.KernelIdeal.R1.Body

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`, by recursion on `n`. -/
def acc (c : Dev nD) : (n : ℕ) → n < cfg1.N → Vec F S1024x1024 .f32
  | 0, h => k1_pay2 (iblk V c 0 ⟨0, h⟩) (iblk V c 1 ⟨0, h⟩) k1_pay1
  | n + 1, h => k1_pay2 (iblk V c 0 ⟨n + 1, h⟩) (iblk V c 1 ⟨n + 1, h⟩)
      (if (n + 1) % 8 = 0 then k1_pay1 else acc c n (Nat.lt_of_succ_lt h))

theorem acc_first (c : Dev nD) (t : Fin cfg1.N) (h0 : t.val % 8 = 0) :
    acc V c t.val t.isLt = k1_pay2 (iblk V c 0 t) (iblk V c 1 t) k1_pay1 := by
  obtain ⟨_ | n, hn⟩ := t
  · rfl
  · exact congrArg _ (if_pos h0)

theorem acc_next (c : Dev nD) (t : Fin cfg1.N) (h0 : ¬t.val % 8 = 0) :
    acc V c t.val t.isLt
      = k1_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg1.N → sProp 𝕄
  | 0, _ => Pipeline.ΦA spec1 c
  | n + 1, hn => iprop(iprop(iprop(owns (c : Thread nD τ) scM fullShare (acc V c n hn)) ∗ others c) ∗ (∃ r, prngReg c r))

theorem PhiS_pos (c : Dev nD) (n : ℕ) (h : n ≤ cfg1.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg1.W) : (dat V c).A w = V c (Pipeline.arrRef spec1 w) := rfl

theorem before0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1 (c : Dev nD) (t : Fin cfg1.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg1.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec1 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg1.N) (xs : Vec F S1024x1024 .f32)
    (hx : ¬t.val % 8 = 0 → xs = acc V c (t.val - 1) (Nat.lt_of_le_of_lt (Nat.sub_le _ _) t.isLt)) :
    k1_pay2 (iblk V c 0 t) (iblk V c 1 t) (if condZ (grid1.coords t) then k1_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg1.N) (d) :
    owns (c : Thread nD τ) (ms2 t) fullShare (if condL (grid1.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg1.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt1 t) (fun _ => bodyPost V c t) := by
  unfold bodyPost bodyAt1
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid1.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg1.N) :
    bodyPre V c t ⊢ wp frame (wpE (defs₀ (F := F)) Variants.none c none) Set.univ (bodyAt1 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W1, bigSep_W1]
  exact sound_body V c t

theorem hout (c : Dev nD) : (dat V c).Φ (Fin.last cfg1.N) ⊢ Pipeline.ΦA spec1 c := by
  rw [PhiA_eq]; exact Phi_out V c _

end Cert.KernelIdeal.R1

end
-- ==== Proof.KernelIdeal.R2.Body.lean ====
import proofs.«152358_j83777632076060_1_alg».proof.Proof.Gen.KernelIdeal.Launch
import proofs.«152358_j83777632076060_1_alg».proof.Proof.Gen.KernelIdeal.Skeleton
import proofs.«152358_j83777632076060_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- First piece of the contracted axis. -/
abbrev condZ (i : grid2.Coords) : Prop :=
  (Scalar.cmpi .ne (Scalar.extui (Scalar.cmpi .eq (BitVec.ofNat 32 (i 2).val) 0#32)) 0#32) = 1#1
theorem hcondZ : ∀ t : Fin cfg2.N, condZ (grid2.coords t) ↔ t.val % 8 = 0 :=
  (by decide +kernel : ∀ t : Fin grid2.N, condZ (grid2.coords t) ↔ t.val % 8 = 0)

/-- Last piece of the contracted axis. -/
abbrev condL (i : grid2.Coords) : Prop := k2_cond2 i = 1#1
theorem hcondL : ∀ t : Fin cfg2.N, condL (grid2.coords t) ↔ t.val % 8 = 7 :=
  (by decide +kernel : ∀ t : Fin grid2.N, condL (grid2.coords t) ↔ t.val % 8 = 7)

theorem live0 : ∀ t : Fin cfg2.N, cfg2.idle 0 (grid2.coords t) = false := by decide +kernel
theorem live1 : ∀ t : Fin cfg2.N, cfg2.idle 1 (grid2.coords t) = false := by decide +kernel
theorem idle2 : ∀ t : Fin cfg2.N, ¬t.val % 8 = 7 → cfg2.idle 2 (grid2.coords t) = true := by decide +kernel
theorem noFlush2 : ∀ t : Fin cfg2.N, ¬t.val % 8 = 7 → (cfg2.win 2).flush t = false := by decide +kernel
theorem live2 : ∀ t : Fin cfg2.N, t.val % 8 = 7 → cfg2.idle 2 (grid2.coords t) = false := by decide +kernel

abbrev ms0 (t : Fin cfg2.N) : Memref sig .tc .vmem S1024x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x1024 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x1024 .f32 := win2_2.stage (cfg2.slots t 2)
abbrev hs2 (t : Fin cfg2.N) : (ms2 t).IsWhole := hstage2_2 ((cfg2.slots t 2).cast nbuf2_2)
/-- The accumulator. -/
abbrev scM : Memref sig .tc .vmem S1024x1024 .f32 := Memref.whole cc2_scratch0

abbrev others (c : Dev nD) : sProp 𝕄 :=
  Pipeline.scopedRestBut (Ix := Unit) (Name := ℕ) (U := UR sig nD τ) (Lvl := ℕ) (Val := Elt F) spec2 c [cc2_scratch0]

theorem PhiA_eq (c : Dev nD) :
    (Pipeline.ΦA spec2 c : sProp 𝕄)
      = iprop(iprop(iprop((∃ d, owns (c : Thread nD τ) scM fullShare d)) ∗ others c) ∗ (∃ r, prngReg c r)) := by
  unfold Pipeline.ΦA
  rw [Pipeline.scopedRest_split_of_list spec2 c [cc2_scratch0] (by decide) (by decide)]
  simp only [scM, owns_whole]; try rfl

theorem hz : (![0, 0] : Fin 2 → Nat) = fun _ => 0 := funext fun a => by fin_cases a <;> rfl

variable (c : Dev nD) (i : grid2.Coords) (a3 : Memref sig .tc .vmem S1024x512 .f32) (h3 : a3.IsWhole)
  (a4 : Memref sig .tc .vmem S512x1024 .f32) (h4 : a4.IsWhole) (a5 : Memref sig .tc .vmem S1024x1024 .f32) (h5 : a5.IsWhole)
  (a6 : Memref sig .tc .vmem S1024x1024 .f32) (h6 : a6.IsWhole)
  (x0 : Vec F S1024x512 .f32) (x1 : Vec F S512x1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare xi ∗ owns (c : Thread nD τ) a6 fullShare xs
        ∗ (iprop(owns (c : Thread nD τ) a3 fullShare x0 ∗ owns (c : Thread nD τ) a4 fullShare x1
            ∗ owns (c : Thread nD τ) a5 fullShare (if condL i then k2_pay2 x0 x1 (if condZ i then k2_pay1 else xs) else xi)
            ∗ owns (c : Thread nD τ) a6 fullShare (k2_pay2 x0 x1 (if condZ i then k2_pay1 else xs))) -∗ K ⟨⟩))
      ⊢ wp frame (wpE (defs₀ (F := F)) Variants.none c none) E (cc2__stage_mid_kernel i a3 h3 a4 h4 a5 h5 a6 h6) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc2__stage_mid_kernel_eq_skeleton]; unfold cc2__stage_mid_kernel_skel
    unfold owns
    iintro ⟨⟨%f0, %hf0, H0⟩, ⟨%f1, %hf1, H1⟩, ⟨%f2, %hf2, H2⟩, ⟨%fs, %hfs, HS⟩, Hk⟩
    obtain rfl := h3.eq_unread hf0; obtain rfl := h4.eq_unread hf1; obtain rfl := h5.eq_unread hf2; obtain rfl := h6.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr
      swap; · iexact H2
      ipureintro
      first
      | guard_hyp hL : ¬condL i; exact h5.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h6.read_unread, View.readCov_unit_zero (S := S1024x1024) _ hz, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h6.read_unread, View.ld_unit_zero (S := S1024x512) hz, View.ld_unit_zero (S := S512x1024) hz, View.ld_unit_zero (S := S1024x1024) hz]

end Cert.KernelIdeal.R2

end
-- ==== Proof.KernelIdeal.R2.Frame.lean ====
import proofs.«152358_j83777632076060_1_alg».proof.Proof.KernelIdeal.R2.Body

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`, by recursion on `n`. -/
def acc (c : Dev nD) : (n : ℕ) → n < cfg2.N → Vec F S1024x1024 .f32
  | 0, h => k2_pay2 (iblk V c 0 ⟨0, h⟩) (iblk V c 1 ⟨0, h⟩) k2_pay1
  | n + 1, h => k2_pay2 (iblk V c 0 ⟨n + 1, h⟩) (iblk V c 1 ⟨n + 1, h⟩)
      (if (n + 1) % 8 = 0 then k2_pay1 else acc c n (Nat.lt_of_succ_lt h))

theorem acc_first (c : Dev nD) (t : Fin cfg2.N) (h0 : t.val % 8 = 0) :
    acc V c t.val t.isLt = k2_pay2 (iblk V c 0 t) (iblk V c 1 t) k2_pay1 := by
  obtain ⟨_ | n, hn⟩ := t
  · rfl
  · exact congrArg _ (if_pos h0)

theorem acc_next (c : Dev nD) (t : Fin cfg2.N) (h0 : ¬t.val % 8 = 0) :
    acc V c t.val t.isLt
      = k2_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

def PhiS (c : Dev nD) : (n : ℕ) → n ≤ cfg2.N → sProp 𝕄
  | 0, _ => Pipeline.ΦA spec2 c
  | n + 1, hn => iprop(iprop(iprop(owns (c : Thread nD τ) scM fullShare (acc V c n hn)) ∗ others c) ∗ (∃ r, prngReg c r))

theorem PhiS_pos (c : Dev nD) (n : ℕ) (h : n ≤ cfg2.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => acc V c t.val t.isLt
  Φ t := PhiS V c t.val (Nat.le_of_lt_succ t.isLt)
  q _ := fullShare
  owed _ := 0

theorem A_eq (c : Dev nD) (w : Fin cfg2.W) : (dat V c).A w = V c (Pipeline.arrRef spec2 w) := rfl

theorem before0 (c : Dev nD) (t : Fin cfg2.N) (d) : (dat V c).before 0 t d = iblk V c 0 t :=
  ((dat V c).before_in_eq_fetched 0 rfl (fun _ => rfl) (fun _ _ _ => rfl) (fun _ => rfl) t d).trans rfl
theorem before1 (c : Dev nD) (t : Fin cfg2.N) (d) : (dat V c).before 1 t d = iblk V c 1 t :=
  ((dat V c).before_in_eq_fetched 1 rfl (fun _ => rfl) (fun _ _ _ => rfl) (fun _ => rfl) t d).trans rfl

theorem Phi_out (c : Dev nD) (t : Fin (cfg2.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec2 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg2.N) (xs : Vec F S1024x1024 .f32)
    (hx : ¬t.val % 8 = 0 → xs = acc V c (t.val - 1) (Nat.lt_of_le_of_lt (Nat.sub_le _ _) t.isLt)) :
    k2_pay2 (iblk V c 0 t) (iblk V c 1 t) (if condZ (grid2.coords t) then k2_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t)

theorem leaves2 (c : Dev nD) (t : Fin cfg2.N) (d) :
    owns (c : Thread nD τ) (ms2 t) fullShare (if condL (grid2.coords t) then acc V c t.val t.isLt else (dat V c).before 2 t d)
      ⊢ (dat V c).leavesExact 2 t := by
  by_cases h1 : t.val % 8 = 7
  · rw [if_pos ((hcondL t).mpr h1), show (dat V c).leavesExact 2 t = owns (c : Thread nD τ) (ms2 t) fullShare (acc V c t.val t.isLt) from by
      unfold Dat.leavesExact; rw [live2 t h1]; rfl]
  · rw [if_neg (fun h => h1 ((hcondL t).mp h)), Dat.leavesExact_idle (dat V c) 2 t (idle2 t h1) (noFlush2 t h1)]
    iintro H; iexists d; iexact H

/-- The body at point `t`, started from accumulator `xs`. -/
theorem close (c : Dev nD) (t : Fin cfg2.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d)))
      ⊢ wp frame (wpE (defs₀ (F := F)) Variants.none c none) Set.univ (bodyAt2 t) (fun _ => bodyPost V c t) := by
  unfold bodyPost bodyAt2
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl, ← acc_eq V c t xs hx]
  simp only [before0, before1]
  iintro ⟨⟨⟨HS, Hoth⟩, Hg⟩, Ho, ⟨%d0, H0⟩, ⟨%d1, H1⟩, ⟨%d2, H2⟩⟩
  iapply (run c (grid2.coords t) (ms0 t) (hs0 t) (ms1 t) (hs1 t) (ms2 t) (hs2 t) scM (Memref.isWhole_whole _) (iblk V c 0 t) (iblk V c 1 t) xs _
    (fun h => by have := (hcondZ t).mp h.1; have := (hcondL t).mp h.2; omega) Set.univ _)
  isplitl [H0]; · iexact H0
  isplitl [H1]; · iexact H1
  isplitl [H2]; · iexact H2
  isplitl [HS]; · iexact HS
  iintro ⟨H0, H1, H2, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  iapply (leaves2 V c t d2)
  rw [acc_eq V c t xs hx]; iexact H2

/-- The body at every point. -/
theorem sound_body (c : Dev nD) (t : Fin cfg2.N) :
    bodyPre V c t ⊢ wp frame (wpE (defs₀ (F := F)) Variants.none c none) Set.univ (bodyAt2 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W2, bigSep_W2]
  exact sound_body V c t

theorem hout (c : Dev nD) : (dat V c).Φ (Fin.last cfg2.N) ⊢ Pipeline.ΦA spec2 c := by
  rw [PhiA_eq]; exact Phi_out V c _

end Cert.KernelIdeal.R2

end
-- ==== Proof.KernelIdeal.R3.Body.lean ====
import proofs.«152358_j83777632076060_1_alg».proof.Proof.Gen.KernelIdeal.Launch
import proofs.«152358_j83777632076060_1_alg».proof.Proof.Gen.KernelIdeal.Skeleton
import proofs.«152358_j83777632076060_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- First piece of the contracted axis. -/
abbrev condZ (i : grid3.Coords) : Prop :=
  (Scalar.cmpi .ne (Scalar.extui (Scalar.cmpi .eq (BitVec.ofNat 32 (i 2).val) 0#32)) 0#32) = 1#1
theorem hcondZ : ∀ t : Fin cfg3.N, condZ (grid3.coords t) ↔ t.val % 8 = 0 :=
  (by decide +kernel : ∀ t : Fin grid3.N, condZ (grid3.coords t) ↔ t.val % 8 = 0)

/-- Last piece of the contracted axis. -/
abbrev condL (i : grid3.Coords) : Prop := k3_cond2 i = 1#1
theorem hcondL : ∀ t : Fin cfg3.N, condL (grid3.coords t) ↔ t.val % 8 = 7 :=
  (by decide +kernel : ∀ t : Fin grid3.N, condL (grid3.coords t) ↔ t.val % 8 = 7)

theorem live0 : ∀ t : Fin cfg3.N, cfg3.idle 0 (grid3.coords t) = false := by decide +kernel
theorem live1 : ∀ t : Fin cfg3.N, cfg3.idle 1 (grid3.coords t) = false := by decide +kernel
theorem live2 : ∀ t : Fin cfg3.N, cfg3.idle 2 (grid3.coords t) = false := by decide +kernel
theorem idle3 : ∀ t : Fin cfg3.N, ¬t.val % 8 = 7 → cfg3.idle 3 (grid3.coords t) = true := by decide +kernel
theorem noFlush3 : ∀ t : Fin cfg3.N, ¬t.val % 8 = 7 → (cfg3.win 3).flush t = false := by decide +kernel
theorem live3 : ∀ t : Fin cfg3.N, t.val % 8 = 7 → cfg3.idle 3 (grid3.coords t) = false := by decide +kernel

abbrev ms0 (t : Fin cfg3.N) : Memref sig .tc .vmem S1024x512 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S512x1024 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S1024 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1024x1024 .f32 := win3_3.stage (cfg3.slots t 3)
abbrev hs3 (t : Fin cfg3.N) : (ms3 t).IsWhole := hstage3_3 ((cfg3.slots t 3).cast nbuf3_3)
/-- The accumulator. -/
abbrev scM : Memref sig .tc .vmem S1024x1024 .f32 := Memref.whole cc3_scratch0

abbrev others (c : Dev nD) : sProp 𝕄 :=
  Pipeline.scopedRestBut (Ix := Unit) (Name := ℕ) (U := UR sig nD τ) (Lvl := ℕ) (Val := Elt F) spec3 c [cc3_scratch0]

theorem PhiA_eq (c : Dev nD) :
    (Pipeline.ΦA spec3 c : sProp 𝕄)
      = iprop(iprop(iprop((∃ d, owns (c : Thread nD τ) scM fullShare d)) ∗ others c) ∗ (∃ r, prngReg c r)) := by
  unfold Pipeline.ΦA
  rw [Pipeline.scopedRest_split_of_list spec3 c [cc3_scratch0] (by decide) (by decide)]
  simp only [scM, owns_whole]; try rfl

theorem hz : (![0, 0] : Fin 2 → Nat) = fun _ => 0 := funext fun a => by fin_cases a <;> rfl
theorem hz1 : (![0] : Fin 1 → Nat) = fun _ => 0 := funext fun a => by fin_cases a <;> rfl

variable (c : Dev nD) (i : grid3.Coords) (a3 : Memref sig .tc .vmem S1024x512 .f32) (h3 : a3.IsWhole)
  (a4 : Memref sig .tc .vmem S512x1024 .f32) (h4 : a4.IsWhole) (a5 : Memref sig .tc .vmem S1024 .f32) (h5 : a5.IsWhole)
  (a6 : Memref sig .tc .vmem S1024x1024 .f32) (h6 : a6.IsWhole) (a7 : Memref sig .tc .vmem S1024x1024 .f32) (h7 : a7.IsWhole)
  (x0 : Vec F S1024x512 .f32) (x1 : Vec F S512x1024 .f32) (x2 : Vec F S1024 .f32) (xs xi : Vec F S1024x1024 .f32)

set_option maxHeartbeats 1000000 in
/-- One execution of the body: the accumulator becomes `acc₀ + x0 · x1`, where `acc₀` is zero on the first piece and the old
    accumulator `xs` otherwise; on the last piece the output block receives the new accumulator plus the bias `x2` down its
    columns, transposed, and is otherwise left at `xi`. -/
theorem run (hZL : ¬(condZ i ∧ condL i)) (E : Set ℕ) (K : PUnit → sProp 𝕄) :
    iprop(owns (c : Thread nD τ) a3 fullShare x0 ∗ owns (c : Thread nD τ) a4 fullShare x1 ∗ owns (c : Thread nD τ) a5 fullShare x2
        ∗ owns (c : Thread nD τ) a6 fullShare xi ∗ owns (c : Thread nD τ) a7 fullShare xs
        ∗ (iprop(owns (c : Thread nD τ) a3 fullShare x0 ∗ owns (c : Thread nD τ) a4 fullShare x1 ∗ owns (c : Thread nD τ) a5 fullShare x2
            ∗ owns (c : Thread nD τ) a6 fullShare (if condL i then k3_pay3 x2 (k3_pay2 x0 x1 (if condZ i then k3_pay1 else xs)) else xi)
            ∗ owns (c : Thread nD τ) a7 fullShare (k3_pay2 x0 x1 (if condZ i then k3_pay1 else xs))) -∗ K ⟨⟩))
      ⊢ wp frame (wpE (defs₀ (F := F)) Variants.none c none) E (cc3__stage_last_kernel i a3 h3 a4 h4 a5 h5 a6 h6 a7 h7) K := by
  by_cases hZ : condZ i <;> by_cases hL : condL i
  · exact absurd ⟨hZ, hL⟩ hZL
  all_goals
    first
    | rw [if_pos hZ, if_neg hL]
    | rw [if_neg hZ, if_pos hL]
    | rw [if_neg hZ, if_neg hL]
    simp only [cc3__stage_last_kernel_eq_skeleton]; unfold cc3__stage_last_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := h3.eq_unread hf0; obtain rfl := h4.eq_unread hf1; obtain rfl := h5.eq_unread hf2; obtain rfl := h6.eq_unread hf3; obtain rfl := h7.eq_unread hfs
    sl_exec (disch := first | exact hZ | exact hL)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr
      swap; · iexact H3
      ipureintro
      first
      | guard_hyp hL : ¬condL i; exact h6.read_unread _
      | refine (View.read_writes_eq_canon _ _ _ (View.cover_of_tiledL _ S1024x1024.size (by sl_kernel_rfl))).trans ?_
        sl_unfold_words
        rw [View.canon_unit_zero hz]
        simp only [View.readAt_eq_ld, h3.read_unread, h4.read_unread, h5.read_unread, h7.read_unread, View.readCov_unit_zero (S := S1024x1024) _ hz, View.ld_unit_zero (S := S1024) hz1, View.ld_unit_zero (S := S1024x512) hz, View.ld_unit_zero (S := S512x1024) hz, View.ld_unit_zero (S := S1024x1024) hz]
    iexists _; isplitr
    swap; · iexact HS
    ipureintro
    refine (View.read_writes_eq_canon _ _ _ (View.cover_of_tiledL _ S1024x1024.size (by sl_kernel_rfl))).trans ?_
    sl_unfold_words
    first
    | rw [View.canon_cons_unit_zero (S := S1024x1024) hz, View.readCov_unit_zero (S := S1024x1024) _ hz]
    | rw [View.canon_unit_zero hz]
    simp only [View.readAt_eq_ld, h3.read_unread, h4.read_unread, h7.read_unread, View.ld_unit_zero (S := S1024x512) hz, View.ld_unit_zero (S := S512x1024) hz, View.ld_unit_zero (S := S1024x1024) hz]

end Cert.KernelIdeal.R3

end
-- ==== Proof.KernelIdeal.R3.Frame.lean ====
import proofs.«152358_j83777632076060_1_alg».proof.Proof.KernelIdeal.R3.Body

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block of array `w` at grid point `t`. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`, by recursion on `n`. -/
def acc (c : Dev nD) : (n : ℕ) → n < cfg3.N → Vec F S1024x1024 .f32
  | 0, h => k3_pay2 (iblk V c 0 ⟨0, h⟩) (iblk V c 1 ⟨0, h⟩) k3_pay1
  | n + 1, h => k3_pay2 (iblk V c 0 ⟨n + 1, h⟩) (iblk V c 1 ⟨n + 1, h⟩)
      (if (n + 1) % 8 = 0 then k3_pay1 else acc c n (Nat.lt_of_succ_lt h))

theorem acc_first (c : Dev nD) (t : Fin cfg3.N) (h0 : t.val % 8 = 0) :
    acc V c t.val t.isLt = k3_pay2 (iblk V c 0 t) (iblk V c 1 t) k3_pay1 := by
  obtain ⟨_ | n, hn⟩ := t
  · rfl
  · exact congrArg _ (if_pos h0)

theorem acc_next (c : Dev nD) (t : Fin cfg3.N) (h0 : ¬t.val % 8 = 0) :
    acc V c t.val t.isLt
      = k3_pay2 (iblk V c 0 t) (iblk V c 1 t) (acc V c (t.val - 1) (Nat.lt_of_le_of_lt (Nat.sub_le _ _) t.isLt)) := by
  obtain ⟨_ | n, hn⟩ := t
  · exact absurd (Nat.zero_mod _) h0
  · exact congrArg _ (if_neg h0)

/-- What the last piece puts into the output block. -/
abbrev outAt (c : Dev nD) (t : Fin cfg3.N) : Vec F S1024x1024 .f32 := k3_pay3 (iblk V c 2 t) (acc V c t.val t.isLt)

def PhiS (c : Dev nD) : (n : ℕ) → n ≤ cfg3.N → sProp 𝕄
  | 0, _ => Pipeline.ΦA spec3 c
  | n + 1, hn => iprop(iprop(iprop(owns (c : Thread nD τ) scM fullShare (acc V c n hn)) ∗ others c) ∗ (∃ r, prngReg c r))

theorem PhiS_pos (c : Dev nD) (n : ℕ) (h : n ≤ cfg3.N) (hz : n ≠ 0) :
    PhiS V c n h = iprop(iprop(iprop(owns (c : Thread nD τ) scM fullShare (acc V c (n - 1) (by omega))) ∗ others c) ∗ (∃ r, prngReg c r)) := by
  cases n with
  | zero => exact absurd rfl hz
  | succ n => rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := rfl

theorem before0 (c : Dev nD) (t : Fin cfg3.N) (d) : (dat V c).before 0 t d = iblk V c 0 t :=
  ((dat V c).before_in_eq_fetched 0 rfl (fun _ => rfl) (fun _ _ _ => rfl) (fun _ => rfl) t d).trans rfl
theorem before1 (c : Dev nD) (t : Fin cfg3.N) (d) : (dat V c).before 1 t d = iblk V c 1 t :=
  ((dat V c).before_in_eq_fetched 1 rfl (fun _ => rfl) (fun _ _ _ => rfl) (fun _ => rfl) t d).trans rfl
theorem before2 (c : Dev nD) (t : Fin cfg3.N) (d) : (dat V c).before 2 t d = iblk V c 2 t :=
  ((dat V c).before_in_eq_fetched 2 rfl (fun _ => rfl) (fun _ _ _ => rfl) (fun _ => rfl) t d).trans rfl

theorem Phi_out (c : Dev nD) (t : Fin (cfg3.N + 1)) :
    (dat V c).Φ t ⊢ iprop(iprop(iprop((∃ d, owns (c : Thread nD τ) scM fullShare d)) ∗ others c) ∗ (∃ r, prngReg c r)) := by
  obtain ⟨_ | n, hn⟩ := t
  · rw [show (dat V c).Φ ⟨0, hn⟩ = Pipeline.ΦA spec3 c from rfl, PhiA_eq]
  · rw [show (dat V c).Φ ⟨n + 1, hn⟩ = iprop(iprop(iprop(owns (c : Thread nD τ) scM fullShare (acc V c n (Nat.lt_of_succ_lt_succ hn))) ∗ others c) ∗ (∃ r, prngReg c r)) from rfl]
    iintro ⟨⟨HS, Hoth⟩, Hg⟩
    isplitl [HS Hoth]
    · isplitl [HS]
      · iexists _; iexact HS
      iexact Hoth
    iexact Hg

/-- The body's update at `t` gives `acc t` when the old value is `acc (t - 1)` or the piece is the first. -/
theorem acc_eq (c : Dev nD) (t : Fin cfg3.N) (xs : Vec F S1024x1024 .f32)
    (hx : ¬t.val % 8 = 0 → xs = acc V c (t.val - 1) (Nat.lt_of_le_of_lt (Nat.sub_le _ _) t.isLt)) :
    k3_pay2 (iblk V c 0 t) (iblk V c 1 t) (if condZ (grid3.coords t) then k3_pay1 else xs) = acc V c t.val t.isLt := by
  by_cases h0 : t.val % 8 = 0
  · rw [if_pos ((hcondZ t).mpr h0), acc_first V c t h0]
  · rw [if_neg (fun h => h0 ((hcondZ t).mp h)), acc_next V c t h0, hx h0]

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves3 (c : Dev nD) (t : Fin cfg3.N) (d) :
    owns (c : Thread nD τ) (ms3 t) fullShare (if condL (grid3.coords t) then outAt V c t else (dat V c).before 3 t d)
      ⊢ (dat V c).leavesExact 3 t := by
  by_cases h1 : t.val % 8 = 7
  · rw [if_pos ((hcondL t).mpr h1), show (dat V c).leavesExact 3 t = owns (c : Thread nD τ) (ms3 t) fullShare (outAt V c t) from by
      unfold Dat.leavesExact; rw [live3 t h1]; rfl]
  · rw [if_neg (fun h => h1 ((hcondL t).mp h)), Dat.leavesExact_idle (dat V c) 3 t (idle3 t h1) (noFlush3 t h1)]
    iintro H; iexists d; iexact H

/-- The body at point `t`, started from accumulator `xs`. -/
theorem close (c : Dev nD) (t : Fin cfg3.N) (xs : Vec F S1024x1024 .f32)
    (hx : ¬t.val % 8 = 0 → xs = acc V c (t.val - 1) (Nat.lt_of_le_of_lt (Nat.sub_le _ _) t.isLt)) :
    iprop(iprop(iprop(owns (c : Thread nD τ) scM fullShare xs ∗ others c) ∗ (∃ r, prngReg c r)) ∗ (dat V c).owesAt () t.castSucc
        ∗ (∃ d, owns (c : Thread nD τ) (ms0 t) fullShare ((dat V c).before 0 t d))
        ∗ (∃ d, owns (c : Thread nD τ) (ms1 t) fullShare ((dat V c).before 1 t d))
        ∗ (∃ d, owns (c : Thread nD τ) (ms2 t) fullShare ((dat V c).before 2 t d))
        ∗ (∃ d, owns (c : Thread nD τ) (ms3 t) fullShare ((dat V c).before 3 t d)))
      ⊢ wp frame (wpE (defs₀ (F := F)) Variants.none c none) Set.univ (bodyAt3 t) (fun _ => bodyPost V c t) := by
  unfold bodyPost bodyAt3
  rw [show (dat V c).owesAt () t.succ = (dat V c).owesAt () t.castSucc from rfl,
    show (dat V c).Φ t.succ = iprop(iprop(iprop(owns (c : Thread nD τ) scM fullShare (acc V c t.val t.isLt)) ∗ others c) ∗ (∃ r, prngReg c r)) from rfl,
    show (dat V c).leavesExact 0 t = owns (c : Thread nD τ) (ms0 t) fullShare (iblk V c 0 t) from by
      unfold Dat.leavesExact; rw [live0 t]; rfl,
    show (dat V c).leavesExact 1 t = owns (c : Thread nD τ) (ms1 t) fullShare (iblk V c 1 t) from by
      unfold Dat.leavesExact; rw [live1 t]; rfl,
    show (dat V c).leavesExact 2 t = owns (c : Thread nD τ) (ms2 t) fullShare (iblk V c 2 t) from by
      unfold Dat.leavesExact; rw [live2 t]; rfl, ← acc_eq V c t xs hx]
  simp only [before0, before1, before2]
  iintro ⟨⟨⟨HS, Hoth⟩, Hg⟩, Ho, ⟨%d0, H0⟩, ⟨%d1, H1⟩, ⟨%d2, H2⟩, ⟨%d3, H3⟩⟩
  iapply (run c (grid3.coords t) (ms0 t) (hs0 t) (ms1 t) (hs1 t) (ms2 t) (hs2 t) (ms3 t) (hs3 t) scM (Memref.isWhole_whole _)
    (iblk V c 0 t) (iblk V c 1 t) (iblk V c 2 t) xs _
    (fun h => by have := (hcondZ t).mp h.1; have := (hcondL t).mp h.2; omega) Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS Hoth Hg]
  · isplitl [HS Hoth]
    · isplitl [HS]; · iexact HS
      iexact Hoth
    iexact Hg
  isplitl [Ho]; · iexact Ho
  isplitl [H0]; · iexact H0
  isplitl [H1]; · iexact H1
  isplitl [H2]; · iexact H2
  iapply (leaves3 V c t d3)
  unfold outAt; rw [← acc_eq V c t xs hx]; iexact H3

/-- The body at every point. -/
theorem sound_body (c : Dev nD) (t : Fin cfg3.N) :
    bodyPre V c t ⊢ wp frame (wpE (defs₀ (F := F)) Variants.none c none) Set.univ (bodyAt3 t) (fun _ => bodyPost V c t) := by
  unfold bodyPre
  by_cases hz : t.val = 0
  · iintro ⟨HΦ, Hr⟩
    ihave HΦ := Phi_out V c t.castSucc $$ HΦ
    icases HΦ with ⟨⟨⟨%d, HS⟩, Hoth⟩, Hg⟩
    iapply (close V c t d fun h => absurd (by rw [hz]) h)
    isplitl [HS Hoth Hg]
    · isplitl [HS Hoth]
      · isplitl [HS]; · iexact HS
        iexact Hoth
      iexact Hg
    iexact Hr
  · rw [show (dat V c).Φ t.castSucc = PhiS V c t.val (Nat.le_of_lt t.isLt) from rfl, PhiS_pos V c _ _ hz]
    exact close V c t _ fun _ => rfl

theorem body_obligation (c : Dev nD) : BodyObligation (dat (F := F) V c) (defs₀ (F := F)) Variants.none () Set.univ := fun t => by
  rw [bigSep_W3, bigSep_W3]
  exact sound_body V c t

theorem hout (c : Dev nD) : (dat V c).Φ (Fin.last cfg3.N) ⊢ Pipeline.ΦA spec3 c := by
  rw [PhiA_eq]; exact Phi_out V c _

end Cert.KernelIdeal.R3

end
-- ==== Proof.KernelIdeal.Asm.lean ====
import proofs.«152358_j83777632076060_1_alg».proof.Proof.KernelIdeal.R0.Frame
import proofs.«152358_j83777632076060_1_alg».proof.Proof.KernelIdeal.R1.Frame
import proofs.«152358_j83777632076060_1_alg».proof.Proof.KernelIdeal.R2.Frame
import proofs.«152358_j83777632076060_1_alg».proof.Proof.KernelIdeal.R3.Frame
import proofs.«152358_j83777632076060_1_alg».proof.Proof.Gen.KernelIdeal.Regions
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the arrays along the chain of stages: a stage changes only its own output. -/
abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (R0.dat (V0 m) c).arrAt w cfg0.N
theorem W1_arr (c : Dev nD) (w : Fin cfg0.W) :
    W1 m c (Proc.devRef .tc (Pipeline.arrRef spec0 w)) = (R0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b

def W2 (c : Dev nD) : Valuation τ sig (Elt F) :=
  Pipeline.withArrays spec1 c (W1 m c) fun w => (R1.dat (V1 m) c).arrAt w cfg1.N
theorem W2_arr (c : Dev nD) (w : Fin cfg1.W) :
    W2 m c (Proc.devRef .tc (Pipeline.arrRef spec1 w)) = (R1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b

def W3 (c : Dev nD) : Valuation τ sig (Elt F) :=
  Pipeline.withArrays spec2 c (W2 m c) fun w => (R2.dat (V2 m) c).arrAt w cfg2.N
theorem W3_arr (c : Dev nD) (w : Fin cfg2.W) :
    W3 m c (Proc.devRef .tc (Pipeline.arrRef spec2 w)) = (R2.dat (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b

def W4 (c : Dev nD) : Valuation τ sig (Elt F) :=
  Pipeline.withArrays spec3 c (W3 m c) fun w => (R3.dat (V3 m) c).arrAt w cfg3.N
theorem W4_arr (c : Dev nD) (w : Fin cfg3.W) :
    W4 m c (Proc.devRef .tc (Pipeline.arrRef spec3 w)) = (R3.dat (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
abbrev V4 : (c : Dev nD) → (b : Ref sig .tc) → Buf (Elt F) ((c : Thread nD τ).loc b) := fun c b => W4 m c b

/-- No stage writes an argument array, so each ends as it began. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 1).trans (((R0.dat (V0 m) c).arrAt_in 1 rfl _).trans (R0.A_eq (V0 m) c 1))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((R3.dat (V3 m) c).arrAt_in 0 rfl _).trans (R3.A_eq (V3 m) c 0))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_of_ne m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 0).trans (((R2.dat (V2 m) c).arrAt_in 0 rfl _).trans (R2.A_eq (V2 m) c 0))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := (W2_arr m c 0).trans (((R1.dat (V1 m) c).arrAt_in 0 rfl _).trans (R1.A_eq (V1 m) c 0))
    _ = W0 m c (Proc.devRef .tc main_arg3) := W1_of_ne m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := (W1_arr m c 0).trans (((R0.dat (V0 m) c).arrAt_in 0 rfl _).trans (R0.A_eq (V0 m) c 0))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 2).trans (((R3.dat (V3 m) c).arrAt_in 2 rfl _).trans (R3.A_eq (V3 m) c 2))
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_of_ne m c main_arg5 (by decide)
    _ = m ((c : Thread nD τ).loc main_arg5) := rfl

def pdats : (p : Fin 4) → (c : Dev nD) → Dat τ (Elt F) Unit ℕ (UR sig nD τ) ℕ (Pipeline.pin (pcfgs (F := F)) adm p) c
  | ⟨0, _⟩ => fun c => R0.dat (V0 m) c
  | ⟨1, _⟩ => fun c => R1.dat (V1 m) c
  | ⟨2, _⟩ => fun c => R2.dat (V2 m) c
  | ⟨3, _⟩ => fun c => R3.dat (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

set_option backward.isDefEq.respectTransparency.types false in
/-- One stage takes the contents from `W` to `W'`; the four stages differ only in their arrays and their body. -/
def seg (p : Fin 4) (hw : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (hst : ∀ (w : Fin (Pipeline.pin (pcfgs (F := F)) adm p).W) (s : Fin ((Pipeline.pin (pcfgs (F := F)) adm p).spec w).nbuf), (((Pipeline.pin (pcfgs (F := F)) adm p).spec w).stage s).IsWhole)
    (harr : ∀ w, ((Pipeline.pin (pcfgs (F := F)) adm p).spec w).arr.IsWhole)
    (W W' : Dev nD → Valuation τ sig (Elt F))
    (hq : ∀ c w, (pdats m p c).share w = fullShare) (howed : ∀ c t, (pdats m p c).owed t = 0)
    (hrec : ∀ c, (pdats m p c).recorded 0 = Set.univ)
    (hA : ∀ c w, (pdats m p c).A w = W c (Proc.devRef .tc (Pipeline.arrRef (Pipeline.pin (pcfgs (F := F)) adm p).spec w)))
    (hF : ∀ c w, (pdats m p c).arrAt w (Pipeline.pin (pcfgs (F := F)) adm p).N = W' c (Proc.devRef .tc (Pipeline.arrRef (Pipeline.pin (pcfgs (F := F)) adm p).spec w)))
    (hrest : ∀ c (b : Ref sig .tc), (∀ w, Pipeline.arrRef (Pipeline.pin (pcfgs (F := F)) adm p).spec w ≠ b) → W' c (Proc.devRef .tc b) = W c (Proc.devRef .tc b))
    (hbody : ∀ c, BodyObligation (pdats m p c) (defs₀ (F := F)) 𝒱₀ () Set.univ)
    (hΦ0 : ∀ c, (pdats m p c).Φ 0 = Pipeline.ΦA (Pipeline.pin (pcfgs (F := F)) adm p).spec c)
    (hΦN : ∀ c, (pdats m p c).Φ (Fin.last (Pipeline.pin (pcfgs (F := F)) adm p).N) ⊢ Pipeline.ΦA (Pipeline.pin (pcfgs (F := F)) adm p).spec c)
    (hpre : ∀ c, (BI.emp : sProp 𝕄) ⊢ Pipeline.prefHeld (pcfgs (F := F) p).pre c (fun _ => fullShare) (adm p).1) :
    Pipeline.RegionSeg (pcfgs (F := F)) adm (pdats m) () defs₀ 𝒱₀ L lv p where
  win := hw.to₀
  block_pos := hpos
  stage_whole := hst
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := by
    rw [Pipeline.ownSems0_none]
    have hsplit := Pipeline.arrays_of_unscopedBufs (p := p) (pcfgs (F := F)) adm (pdats m) hw harr c (hq c) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m) (hq c) (fun b => W c b) (fun b => W' c b) ((pdats m p c).arrAt · (Pipeline.pin (pcfgs (F := F)) adm p).N) (hF c)
      (fun b hb => hrest c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  seg m 0 launch0.win launch0.block_pos launch0.stage_whole launch0.arr_whole (W0 m) (W1 m)
    (fun c => (pdats m 0 c).share_full fun _ => rfl) (fun _ _ => rfl) (fun _ => rfl) (fun _ _ => rfl)
    (fun c w => (W1_arr m c w).symm) (fun c b hb => W1_of_ne m c b hb)
    (fun c => R0.body_obligation (V0 m) c) (fun _ => rfl) (fun c => R0.hout (V0 m) c)
    (fun c => by unfold Pipeline.prefHeld; rw [show (Finset.univ : Finset (Fin 0)) = ∅ from rfl, BI.bigSep_empty])

def reg1 : Pipeline.RegionSeg (pcfgs (F := F)) adm (pdats m) () defs₀ 𝒱₀ L lv 1 :=
  seg m 1 launch1.win launch1.block_pos launch1.stage_whole launch1.arr_whole (W1 m) (W2 m)
    (fun c => (pdats m 1 c).share_full fun _ => rfl) (fun _ _ => rfl) (fun _ => rfl) (fun _ _ => rfl)
    (fun c w => (W2_arr m c w).symm) (fun c b hb => W2_of_ne m c b hb)
    (fun c => R1.body_obligation (V1 m) c) (fun _ => rfl) (fun c => R1.hout (V1 m) c)
    (fun c => by unfold Pipeline.prefHeld; rw [show (Finset.univ : Finset (Fin 0)) = ∅ from rfl, BI.bigSep_empty])

def reg2 : Pipeline.RegionSeg (pcfgs (F := F)) adm (pdats m) () defs₀ 𝒱₀ L lv 2 :=
  seg m 2 launch2.win launch2.block_pos launch2.stage_whole launch2.arr_whole (W2 m) (W3 m)
    (fun c => (pdats m 2 c).share_full fun _ => rfl) (fun _ _ => rfl) (fun _ => rfl) (fun _ _ => rfl)
    (fun c w => (W3_arr m c w).symm) (fun c b hb => W3_of_ne m c b hb)
    (fun c => R2.body_obligation (V2 m) c) (fun _ => rfl) (fun c => R2.hout (V2 m) c)
    (fun c => by unfold Pipeline.prefHeld; rw [show (Finset.univ : Finset (Fin 0)) = ∅ from rfl, BI.bigSep_empty])

def reg3 : Pipeline.RegionSeg (pcfgs (F := F)) adm (pdats m) () defs₀ 𝒱₀ L lv 3 :=
  seg m 3 launch3.win launch3.block_pos launch3.stage_whole launch3.arr_whole (W3 m) (W4 m)
    (fun c => (pdats m 3 c).share_full fun _ => rfl) (fun _ _ => rfl) (fun _ => rfl) (fun _ _ => rfl)
    (fun c w => (W4_arr m c w).symm) (fun c b hb => W4_of_ne m c b hb)
    (fun c => R3.body_obligation (V3 m) c) (fun _ => rfl) (fun c => R3.hout (V3 m) c)
    (fun c => by unfold Pipeline.prefHeld; rw [show (Finset.univ : Finset (Fin 0)) = ∅ from rfl, BI.bigSep_empty])

theorem W4_main_v3 (c : Dev nD) : W4 m c (Proc.devRef .tc main_v3) = (R3.dat (V3 m) c).arrAt 3 cfg3.N := W4_arr m c 3

set_option backward.isDefEq.respectTransparency.types false in
/-- All executions of the whole program end, with every array at the last contents of the chain. -/
theorem main_run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main
    [.region (reg0 m), .region (reg1 m), .region (reg2 m), .region (reg3 m)]
    (fun c Q => by rw [main_segs adm (pdats m) () 𝒱₀ L lv (reg0 m) (reg1 m) (reg2 m) (reg3 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (main_run m ρ)

/-- The same, with the result array's contents named. -/
theorem run_result : θ_run defs (onTc (τ := τ) (main (F := F))) ⟨m, fun _ => 0, ρ⟩ (fun r => ∀ c : Dev nD,
      r.2.mem ((c.tc : Thread nD τ).loc main_v3) = (R3.dat (V3 m) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v3 (by decide))).trans (W4_main_v3 m c),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c)⟩) (main_run m ρ)

end Cert.KernelIdeal.Asm

end
-- ==== Proof.Blocks.lean ====
import Mathlib.Algebra.BigOperators.Group.Finset.Basic
import Mathlib.Data.Fintype.BigOperators

namespace Cert.Blocks

open Finset

/-- Position `l` of block `b` of the 4096 contracted positions. -/
def pos (b : Fin 8) (l : Fin 512) : Fin 4096 := ⟨b.val * 512 + l.val, by have := b.isLt; have := l.isLt; omega⟩

/-- The sum of `f` over the first `n` blocks of 512. -/
def partialSum {M : Type*} [AddCommMonoid M] (f : Fin 4096 → M) (n : ℕ) : M :=
  ∑ k : Fin 4096, if k.val < n * 512 then f k else 0

theorem partialSum_zero {M : Type*} [AddCommMonoid M] (f : Fin 4096 → M) : partialSum f 0 = 0 := by
  unfold partialSum
  apply Finset.sum_eq_zero
  intro k _
  rw [if_neg (by omega)]

/-- Block `b` is the interval from `b · 512` to `(b + 1) · 512`, each position reached once. -/
private theorem block_sum {M : Type*} [AddCommMonoid M] (f : Fin 4096 → M) (b : Fin 8) :
    (∑ k : Fin 4096, if b.val * 512 ≤ k.val ∧ k.val < (b.val + 1) * 512 then f k else 0)
      = ∑ l : Fin 512, f (pos b l) := by
  rw [← Finset.sum_filter]
  symm
  refine Finset.sum_nbij' (fun l => pos b l)
    (fun k => (⟨(k.val - b.val * 512) % 512, Nat.mod_lt _ (by decide)⟩ : Fin 512)) ?_ ?_ ?_ ?_ ?_
  · intro l _
    have := l.isLt
    simp only [Finset.mem_filter, Finset.mem_univ, true_and, pos]
    omega
  · intro k _
    exact Finset.mem_univ _
  · intro l _
    have := l.isLt
    apply Fin.ext
    simp only [pos]
    omega
  · intro k hk
    simp only [Finset.mem_filter, Finset.mem_univ, true_and] at hk
    apply Fin.ext
    simp only [pos]
    omega
  · intro l _
    rfl

/-- A position below `(b + 1) · 512` is below `b · 512` or in block `b`, never both. -/
theorem partialSum_succ {M : Type*} [AddCommMonoid M] (f : Fin 4096 → M) (b : Fin 8) :
    partialSum f (b.val + 1) = partialSum f b.val + ∑ l : Fin 512, f (pos b l) := by
  unfold partialSum
  rw [← block_sum f b, ← Finset.sum_add_distrib]
  apply Finset.sum_congr rfl
  intro k _
  by_cases h1 : k.val < b.val * 512
  · have h2 : k.val < (b.val + 1) * 512 := by omega
    have h3 : ¬ (b.val * 512 ≤ k.val ∧ k.val < (b.val + 1) * 512) := by omega
    rw [if_pos h1, if_pos h2, if_neg h3, add_zero]
  · by_cases h2 : k.val < (b.val + 1) * 512
    · have h3 : b.val * 512 ≤ k.val ∧ k.val < (b.val + 1) * 512 := by omega
      rw [if_neg h1, if_pos h2, if_pos h3, zero_add]
    · have h3 : ¬ (b.val * 512 ≤ k.val ∧ k.val < (b.val + 1) * 512) := by omega
      rw [if_neg h1, if_neg h2, if_neg h3, add_zero]

theorem partialSum_eight {M : Type*} [AddCommMonoid M] (f : Fin 4096 → M) : partialSum f 8 = ∑ k : Fin 4096, f k := by
  unfold partialSum
  apply Finset.sum_congr rfl
  intro k _
  have := k.isLt
  rw [if_pos (by omega)]

/-- An accumulator cleared at each tile's first K-block and gaining block `n mod 8` of `g n` at point `n`, where `g` is
    constant within a tile, holds after point `n` the sum of `g n` over the first `n mod 8 + 1` blocks. -/
theorem fold_eq {M : Type*} [AddCommMonoid M] {N : ℕ} (A : (n : ℕ) → n < N → M) (g : ℕ → Fin 4096 → M)
    (hg : ∀ n, ¬(n + 1) % 8 = 0 → g n = g (n + 1))
    (hfirst : ∀ n h, n % 8 = 0 → A n h = 0 + ∑ l : Fin 512, g n (pos ⟨n % 8, Nat.mod_lt _ (by decide)⟩ l))
    (hnext : ∀ n (h : n + 1 < N), ¬(n + 1) % 8 = 0 →
      A (n + 1) h = A n (Nat.lt_of_succ_lt h) + ∑ l : Fin 512, g (n + 1) (pos ⟨(n + 1) % 8, Nat.mod_lt _ (by decide)⟩ l)) :
    ∀ n h, A n h = partialSum (g n) (n % 8 + 1) := by
  have first : ∀ n h, n % 8 = 0 → A n h = partialSum (g n) (n % 8 + 1) := fun n h h0 => by
    have e : (0 : M) = partialSum (g n) (n % 8) := by rw [h0, partialSum_zero]
    exact (hfirst n h h0).trans ((congrArg (· + ∑ l : Fin 512, g n (pos ⟨n % 8, Nat.mod_lt _ (by decide)⟩ l)) e).trans
      (partialSum_succ (g n) ⟨n % 8, Nat.mod_lt _ (by decide)⟩).symm)
  intro n
  induction n with
  | zero => exact fun h => first 0 h rfl
  | succ n ih =>
    intro h
    by_cases h0 : (n + 1) % 8 = 0
    · exact first _ h h0
    · have e : A n (Nat.lt_of_succ_lt h) = partialSum (g (n + 1)) ((n + 1) % 8) := by
        rw [ih, hg n h0, show n % 8 + 1 = (n + 1) % 8 by omega]
      exact (hnext n h h0).trans ((congrArg (· + ∑ l : Fin 512, g (n + 1) (pos ⟨(n + 1) % 8, Nat.mod_lt _ (by decide)⟩ l)) e).trans
        (partialSum_succ (g (n + 1)) ⟨(n + 1) % 8, Nat.mod_lt _ (by decide)⟩).symm)

end Cert.Blocks
-- ==== Proof.Spec.lean ====
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Mat (a b : Nat) : Type := (⟨2, ![a, b]⟩ : Shape).Idx → EReal
abbrev Vec1 (n : Nat) : Type := (⟨1, ![n]⟩ : Shape).Idx → EReal

/-- Product with the second factor transposed. -/
def mulT (W : Mat 4096 4096) (U : Mat 2048 4096) : Mat 4096 2048 :=
  fun i => ∑ k : Fin 4096, W (ix2 (n0 := 4096) (n1 := 4096) (i 0) k) * U (ix2 (n0 := 2048) (n1 := 4096) (i 1) k)

/-- Matrix product. -/
def mul (W : Mat 4096 4096) (Y : Mat 4096 2048) : Mat 4096 2048 :=
  fun i => ∑ k : Fin 4096, W (ix2 (n0 := 4096) (n1 := 4096) (i 0) k) * Y (ix2 (n0 := 4096) (n1 := 2048) k (i 1))

/-- Transposed product plus a bias that varies along the columns. -/
def mulTAdd (W : Mat 4096 4096) (Y : Mat 4096 2048) (b : Vec1 4096) : Mat 2048 4096 :=
  fun i => (∑ k : Fin 4096, W (ix2 (n0 := 4096) (n1 := 4096) (i 1) k) * Y (ix2 (n0 := 4096) (n1 := 2048) k (i 0))) + b (ix1 (n := 4096) (i 1))

/-- The four products chained, then the bias. -/
def chain (U : Mat 2048 4096) (W0 W1 W2 W3 : Mat 4096 4096) (b : Vec1 4096) : Mat 2048 4096 :=
  mulTAdd W0 (mul W1 (mul W2 (mulT W3 U))) b

end Cert.Spec

end
-- ==== Proof.KernelIdeal.R0.Value.lean ====
import proofs.«152358_j83777632076060_1_alg».proof.Proof.KernelIdeal.R0.Frame
import proofs.«152358_j83777632076060_1_alg».proof.Proof.Blocks
import proofs.«152358_j83777632076060_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

theorem mm_lhs_0 (i : S1024x1024.Idx) (r : dot_S1024x512_S1024x512_S1024x1024_1_1_0_0_n_n.contr.Idx) :
    (dot_S1024x512_S1024x512_S1024x1024_1_1_0_0_n_n.lhsIdx i r 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem mm_lhs_1 (i : S1024x1024.Idx) (r : dot_S1024x512_S1024x512_S1024x1024_1_1_0_0_n_n.contr.Idx) :
    (dot_S1024x512_S1024x512_S1024x1024_1_1_0_0_n_n.lhsIdx i r 1).val = (r ⟨0, by decide⟩).val :=
  dot_S1024x512_S1024x512_S1024x1024_1_1_0_0_n_n.lhsIdx_val_of_single rfl i r
theorem mm_rhs_0 (i : S1024x1024.Idx) (r : dot_S1024x512_S1024x512_S1024x1024_1_1_0_0_n_n.contr.Idx) :
    (dot_S1024x512_S1024x512_S1024x1024_1_1_0_0_n_n.rhsIdx i r 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem mm_rhs_1 (i : S1024x1024.Idx) (r : dot_S1024x512_S1024x512_S1024x1024_1_1_0_0_n_n.contr.Idx) :
    (dot_S1024x512_S1024x512_S1024x1024_1_1_0_0_n_n.rhsIdx i r 1).val = (r ⟨0, by decide⟩).val :=
  dot_S1024x512_S1024x512_S1024x1024_1_1_0_0_n_n.rhsIdx_val_of_single rfl i r

/-- Entry (p, q) of the block pair's product, both blocks contracted along their columns, started from zero. -/
theorem mm_apply (a : FVec Ideal S1024x512 .bf16) (b : FVec Ideal S1024x512 .bf16) (p q : Fin 1024) :
    matmul dot_S1024x512_S1024x512_S1024x1024_1_1_0_0_n_n none a b (constant (F := Ideal) S1024x1024 .f32 0x00000000#32) (ix2 p q)
      = ∑ l : Fin 512, a (ix2 p l) * b (ix2 q l) := by
  simp only [matmul]
  rw [Ideal.matmul_constant_zero_apply, ← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 p q) ((ValueIdx.contrEquiv1 dot_S1024x512_S1024x512_S1024x1024_1_1_0_0_n_n 512 rfl rfl).symm k) = ix2 p k := funext fun a => Fin.ext (by
    match a with
    | ⟨0, _⟩ => exact mm_lhs_0 _ _
    | ⟨1, _⟩ => exact (mm_lhs_1 _ _).trans hk)
  have er : dot_S1024x512_S1024x512_S1024x1024_1_1_0_0_n_n.rhsIdx (ix2 p q) ((ValueIdx.contrEquiv1 dot_S1024x512_S1024x512_S1024x1024_1_1_0_0_n_n 512 rfl rfl).symm k) = ix2 q k := funext fun a => Fin.ext (by
    match a with
    | ⟨0, _⟩ => exact mm_rhs_0 _ _
    | ⟨1, _⟩ => exact (mm_rhs_1 _ _).trans hk)
  rw [el, er]

theorem pay1_apply (p q : Fin 1024) : (k0_pay1 (F := Ideal)) (ix2 p q) = 0 := by
  unfold k0_pay1
  refine (congrFun (shapeCast_self _ _) (ix2 p q)).trans ?_
  exact Ideal.ofBits_zero_f32

/-- Entrywise the update adds the block pair's 512 products to the old entry; narrowing the operands changes
    nothing at Ideal. -/
theorem pay2_apply (x0 : Vec Ideal S1024x512 .f32) (x1 : Vec Ideal S1024x512 .f32) (xs : Vec Ideal S1024x1024 .f32) (p q : Fin 1024) :
    k0_pay2 x0 x1 xs (ix2 p q) = xs (ix2 p q) + ∑ l : Fin 512, x0 (ix2 p l) * x1 (ix2 q l) := by
  unfold k0_pay2
  refine (congrFun (shapeCast_self _ _) (ix2 p q)).trans ?_
  refine (addf_apply _ _ _).trans ?_
  refine congrArg (xs (ix2 p q) + ·) ?_
  refine (mm_apply _ _ p q).trans ?_
  refine Finset.sum_congr rfl fun l _ => ?_
  rw [truncf_apply, truncf_apply]

variable (V : (c : Dev nD) → (b : Ref sig .tc) → Buf (Elt Ideal) ((c : Thread nD τ).loc b))

abbrev arrW (c : Dev nD) : Cert.Spec.Mat 4096 4096 := V c main_arg4
abbrev arrU (c : Dev nD) : Cert.Spec.Mat 2048 4096 := V c main_arg0
abbrev blkW (c : Dev nD) (t : Fin cfg0.N) : Vec Ideal S1024x512 .f32 := iblk V c 0 t
abbrev blkU (c : Dev nD) (t : Fin cfg0.N) : Vec Ideal S1024x512 .f32 := iblk V c 1 t

/-- Grid point `n` works on row tile `n / 16 mod 4`, column tile `n / 8 mod 2` and piece `n mod 8`. -/
abbrev kBlock (n : ℕ) : Fin 8 := ⟨n % 8, Nat.mod_lt _ (by decide)⟩

def rowOf (n : ℕ) (p : Fin 1024) : Fin 4096 := ⟨n / 16 % 4 * 1024 + p.val, by have := p.isLt; omega⟩
def colOf (n : ℕ) (q : Fin 1024) : Fin 2048 := ⟨n / 8 % 2 * 1024 + q.val, by have := q.isLt; omega⟩

theorem idx_facts : ∀ t : Fin cfg0.N,
    win0_0.index t (0 : Fin 2) = t.val / 16 % 4 ∧ win0_0.index t (1 : Fin 2) = t.val % 8
    ∧ win0_1.index t (0 : Fin 2) = t.val / 8 % 2 ∧ win0_1.index t (1 : Fin 2) = t.val % 8
    ∧ win0_2.index t (0 : Fin 2) = t.val / 16 % 4 ∧ win0_2.index t (1 : Fin 2) = t.val / 8 % 2 :=
  (by decide +kernel : ∀ t : Fin grid0.N, _)

theorem blkW_apply (c : Dev nD) (t : Fin cfg0.N) (p : Fin 1024) (l : Fin 512) :
    blkW V c t (ix2 p l) = arrW V c (ix2 (rowOf t.val p) (Cert.Blocks.pos (kBlock t.val) l)) := by
  obtain ⟨e0, e1, -, -, -, -⟩ := idx_facts t
  show V c main_arg4 (((cfg0.win 0).blk t).view.emb (ix2 p l)) = V c main_arg4 (ix2 (rowOf t.val p) (Cert.Blocks.pos (kBlock t.val) l))
  congr 1
  funext a; apply Fin.ext
  match a with
  | ⟨0, _⟩ => show win0_0.index t (0 : Fin 2) * 1024 + 1 * p.val = t.val / 16 % 4 * 1024 + p.val; rw [e0]; omega
  | ⟨1, _⟩ => show win0_0.index t (1 : Fin 2) * 512 + 1 * l.val = t.val % 8 * 512 + l.val; rw [e1]; omega

theorem blkU_apply (c : Dev nD) (t : Fin cfg0.N) (q : Fin 1024) (l : Fin 512) :
    blkU V c t (ix2 q l) = arrU V c (ix2 (colOf t.val q) (Cert.Blocks.pos (kBlock t.val) l)) := by
  obtain ⟨-, -, e0, e1, -, -⟩ := idx_facts t
  show V c main_arg0 (((cfg0.win 1).blk t).view.emb (ix2 q l)) = V c main_arg0 (ix2 (colOf t.val q) (Cert.Blocks.pos (kBlock t.val) l))
  congr 1
  funext a; apply Fin.ext
  match a with
  | ⟨0, _⟩ => show win0_1.index t (0 : Fin 2) * 1024 + 1 * q.val = t.val / 8 % 2 * 1024 + q.val; rw [e0]; omega
  | ⟨1, _⟩ => show win0_1.index t (1 : Fin 2) * 512 + 1 * l.val = t.val % 8 * 512 + l.val; rw [e1]; omega

/-- Summand `kk` of entry (r, s), the right factor read transposed. -/
def term (W : Cert.Spec.Mat 4096 4096) (U : Cert.Spec.Mat 2048 4096) (r : Fin 4096) (s : Fin 2048) (kk : Fin 4096) : EReal :=
  W (ix2 r kk) * U (ix2 s kk)

theorem update_apply (c : Dev nD) (t : Fin cfg0.N) (xs : Vec Ideal S1024x1024 .f32) (p q : Fin 1024) :
    k0_pay2 (blkW V c t) (blkU V c t) xs (ix2 p q)
      = xs (ix2 p q) + ∑ l : Fin 512, term (arrW V c) (arrU V c) (rowOf t.val p) (colOf t.val q) (Cert.Blocks.pos (kBlock t.val) l) := by
  refine (pay2_apply (blkW V c t) (blkU V c t) xs p q).trans ?_
  refine congrArg (xs (ix2 p q) + ·) (Finset.sum_congr rfl fun l _ => ?_)
  rw [blkW_apply V c t p l, blkU_apply V c t q l]
  rfl

/-- After point `n`, entry (p, q) of the accumulator is the partial sum over the pieces done so far. -/
theorem sum_eq (c : Dev nD) (n : ℕ) (hn : n < cfg0.N) (p q : Fin 1024) :
    acc V c n hn (ix2 p q) = Cert.Blocks.partialSum (term (arrW V c) (arrU V c) (rowOf n p) (colOf n q)) (n % 8 + 1) :=
  Cert.Blocks.fold_eq (fun n hn => acc V c n hn (ix2 p q)) (fun n => term (arrW V c) (arrU V c) (rowOf n p) (colOf n q))
    (fun n h0 => by
      have er : rowOf n p = rowOf (n + 1) p := Fin.ext (by show n / 16 % 4 * 1024 + p.val = (n + 1) / 16 % 4 * 1024 + p.val; omega)
      have ec : colOf n q = colOf (n + 1) q := Fin.ext (by show n / 8 % 2 * 1024 + q.val = (n + 1) / 8 % 2 * 1024 + q.val; omega)
      rw [er, ec])
    (fun n h h0 => by
      rw [acc_first V c ⟨n, h⟩ h0]
      refine (update_apply V c ⟨n, h⟩ _ p q).trans ?_
      rw [pay1_apply])
    (fun n h h0 => by
      rw [acc_next V c ⟨n + 1, h⟩ h0]
      exact update_apply V c ⟨n + 1, h⟩ _ p q)
    n hn

/-- At a last piece the partial sum is the whole sum: the tile agrees with the product. -/
theorem flushed_eq (c : Dev nD) (t : Fin cfg0.N) (hf : (cfg0.win 2).flush t = true) :
    (dat (F := Ideal) V c).flushed 2 t
      = ((cfg0.win 2).blk t).view.read (Elt Ideal) (Cert.Spec.mulT (arrW V c) (arrU V c)) := by
  have e8 : t.val % 8 + 1 = 8 := by have := (flush0_2 t).mp hf; omega
  obtain ⟨-, -, -, -, e0, e1⟩ := idx_facts t
  show (cfg0.win 2).cut (grid0.coords t) (acc V c t.val t.isLt) = _
  funext j
  obtain ⟨p, q, rfl⟩ : ∃ (p : Fin 1024) (q : Fin 1024), j = ix2 p q := ⟨j 0, j 1, eq_ix2 j⟩
  show acc V c t.val t.isLt (ix2 p q) = Cert.Spec.mulT (arrW V c) (arrU V c) (((cfg0.win 2).blk t).view.emb (ix2 p q))
  rw [sum_eq V c t.val t.isLt p q, e8, Cert.Blocks.partialSum_eight]
  have r0 : ((cfg0.win 2).blk t).view.emb (ix2 p q) 0 = rowOf t.val p :=
    Fin.ext (by show win0_2.index t (0 : Fin 2) * 1024 + 1 * p.val = t.val / 16 % 4 * 1024 + p.val; rw [e0]; omega)
  have r1 : ((cfg0.win 2).blk t).view.emb (ix2 p q) 1 = colOf t.val q :=
    Fin.ext (by show win0_2.index t (1 : Fin 2) * 1024 + 1 * q.val = t.val / 8 % 2 * 1024 + q.val; rw [e1]; omega)
  unfold Cert.Spec.mulT
  rw [r0, r1]
  rfl

theorem mem_blk (t : Fin cfg0.N) (i : S4096x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the output. -/
theorem cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  have hN : cfg0.N = 64 := N_0
  obtain ⟨t, ht⟩ : ∃ t : Fin cfg0.N, t.val = (i 0).val / 1024 * 16 + (i 1).val / 1024 * 8 + 7 :=
    ⟨⟨(i 0).val / 1024 * 16 + (i 1).val / 1024 * 8 + 7, by rw [hN]; omega⟩, rfl⟩
  obtain ⟨-, -, -, -, e0, e1⟩ := idx_facts t
  refine ⟨t, (flush0_2 t).mpr (by rw [ht]; omega), ?_⟩
  rw [mem_blk]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1024 ≤ (i 1).val ∧ (i 1).val < win0_2.index t (1 : Fin 2) * 1024 + 1024
    rw [e1, ht]; omega

/-- The stage's output is the left factor times the transposed right one. -/
theorem final (c : Dev nD) :
    (dat (F := Ideal) V c).arrAt 2 cfg0.N = Cert.Spec.mulT (V c main_arg4) (V c main_arg0) :=
  (dat (F := Ideal) V c).arrAt_eq_of_cover 2 (Cert.Spec.mulT (V c main_arg4) (V c main_arg0)) (fun t hf => flushed_eq V c t hf) cover

end Cert.KernelIdeal.R0

end
-- ==== Proof.KernelIdeal.Dot.lean ====
import proofs.«152358_j83777632076060_1_alg».proof.Proof.Gen.KernelIdeal
import Idealize.ShloMosaic.Lib.ValueIdx
import Idealize.ShloMosaic.PureOps.Ideal.Laws

set_option maxRecDepth 16384

noncomputable section

namespace Cert.KernelIdeal.Dot

open Idealize.ShloMosaic Idealize.ShloMosaic.TcCoe Idealize.ShloMosaic.ValueIdx
open Cert.KernelIdeal

/-- Columns of the left block against rows of the right block. -/
abbrev D : DotDims S1024x512 S512x1024 S1024x1024 := dot_S1024x512_S512x1024_S1024x1024_1_0_0_1_n_n

theorem lhs_0 (i : S1024x1024.Idx) (r : D.contr.Idx) : (D.lhsIdx i r 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhs_1 (i : S1024x1024.Idx) (r : D.contr.Idx) : (D.lhsIdx i r 1).val = (r ⟨0, by decide⟩).val :=
  D.lhsIdx_val_of_single rfl i r
theorem rhs_0 (i : S1024x1024.Idx) (r : D.contr.Idx) : (D.rhsIdx i r 0).val = (r ⟨0, by decide⟩).val :=
  D.rhsIdx_val_of_single rfl i r
theorem rhs_1 (i : S1024x1024.Idx) (r : D.contr.Idx) : (D.rhsIdx i r 1).val = (i 1).val := by
  unfold DotDims.rhsIdx
  rw [dif_neg (show ¬(1 : Fin S512x1024.rank) ∈ D.rhsBatch by decide), dif_pos (show (1 : Fin S512x1024.rank) ∈ D.rhsNonContracting by decide)]
  rfl

/-- Entry (p, q) of a block pair's product, started from zero, is `∑ l, a (p, l) · b (l, q)`. -/
theorem mm_apply (a : FVec Ideal S1024x512 .bf16) (b : FVec Ideal S512x1024 .bf16) (p q : Fin 1024) :
    matmul D none a b (constant (F := Ideal) S1024x1024 .f32 0x00000000#32) (ix2 p q) = ∑ l : Fin 512, a (ix2 p l) * b (ix2 l q) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 512 rfl rfl).symm k) = ix2 k q := funext fun a => Fin.ext (by
    match a with
    | ⟨0, _⟩ => exact (rhs_0 _ _).trans hk
    | ⟨1, _⟩ => exact rhs_1 _ _)
  rw [el, er]

end Cert.KernelIdeal.Dot

end
-- ==== Proof.KernelIdeal.R1.Value.lean ====
import proofs.«152358_j83777632076060_1_alg».proof.Proof.KernelIdeal.R1.Frame
import proofs.«152358_j83777632076060_1_alg».proof.Proof.KernelIdeal.Dot
import proofs.«152358_j83777632076060_1_alg».proof.Proof.Blocks
import proofs.«152358_j83777632076060_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

theorem pay1_apply (p q : Fin 1024) : (k1_pay1 (F := Ideal)) (ix2 p q) = 0 := by
  unfold k1_pay1
  refine (congrFun (shapeCast_self _ _) (ix2 p q)).trans ?_
  exact Ideal.ofBits_zero_f32

/-- Entrywise the update adds the block pair's 512 products to the old entry; narrowing the operands changes
    nothing at Ideal. -/
theorem pay2_apply (x0 : Vec Ideal S1024x512 .f32) (x1 : Vec Ideal S512x1024 .f32) (xs : Vec Ideal S1024x1024 .f32) (p q : Fin 1024) :
    k1_pay2 x0 x1 xs (ix2 p q) = xs (ix2 p q) + ∑ l : Fin 512, x0 (ix2 p l) * x1 (ix2 l q) := by
  unfold k1_pay2
  refine (congrFun (shapeCast_self _ _) (ix2 p q)).trans ?_
  refine (addf_apply _ _ _).trans ?_
  refine congrArg (xs (ix2 p q) + ·) ?_
  refine (Dot.mm_apply _ _ p q).trans ?_
  refine Finset.sum_congr rfl fun l _ => ?_
  rw [truncf_apply, truncf_apply, shapeCast_self]

variable (V : (c : Dev nD) → (b : Ref sig .tc) → Buf (Elt Ideal) ((c : Thread nD τ).loc b))

/-- Left factor. -/
abbrev arrW (c : Dev nD) : Cert.Spec.Mat 4096 4096 := V c main_arg3
/-- Right factor. -/
abbrev arrY (c : Dev nD) : Cert.Spec.Mat 4096 2048 := V c main_v0
abbrev blkW (c : Dev nD) (t : Fin cfg1.N) : Vec Ideal S1024x512 .f32 := iblk V c 0 t
abbrev blkY (c : Dev nD) (t : Fin cfg1.N) : Vec Ideal S512x1024 .f32 := iblk V c 1 t

/-- Grid point `n` works on row tile `n / 16 mod 4`, column tile `n / 8 mod 2` and piece `n mod 8`. -/
abbrev kBlock (n : ℕ) : Fin 8 := ⟨n % 8, Nat.mod_lt _ (by decide)⟩
def rowOf (n : ℕ) (p : Fin 1024) : Fin 4096 := ⟨n / 16 % 4 * 1024 + p.val, by have := p.isLt; omega⟩
def colOf (n : ℕ) (q : Fin 1024) : Fin 2048 := ⟨n / 8 % 2 * 1024 + q.val, by have := q.isLt; omega⟩

theorem idx_facts : ∀ t : Fin cfg1.N,
    win1_0.index t (0 : Fin 2) = t.val / 16 % 4 ∧ win1_0.index t (1 : Fin 2) = t.val % 8
    ∧ win1_1.index t (0 : Fin 2) = t.val % 8 ∧ win1_1.index t (1 : Fin 2) = t.val / 8 % 2
    ∧ win1_2.index t (0 : Fin 2) = t.val / 16 % 4 ∧ win1_2.index t (1 : Fin 2) = t.val / 8 % 2 :=
  (by decide +kernel : ∀ t : Fin grid1.N, _)

theorem blkW_apply (c : Dev nD) (t : Fin cfg1.N) (p : Fin 1024) (l : Fin 512) :
    blkW V c t (ix2 p l) = arrW V c (ix2 (rowOf t.val p) (Cert.Blocks.pos (kBlock t.val) l)) := by
  obtain ⟨e0, e1, -, -, -, -⟩ := idx_facts t
  show V c main_arg3 (((cfg1.win 0).blk t).view.emb (ix2 p l)) = V c main_arg3 (ix2 (rowOf t.val p) (Cert.Blocks.pos (kBlock t.val) l))
  congr 1
  funext a; apply Fin.ext
  match a with
  | ⟨0, _⟩ => show win1_0.index t (0 : Fin 2) * 1024 + 1 * p.val = t.val / 16 % 4 * 1024 + p.val; rw [e0]; omega
  | ⟨1, _⟩ => show win1_0.index t (1 : Fin 2) * 512 + 1 * l.val = t.val % 8 * 512 + l.val; rw [e1]; omega

theorem blkY_apply (c : Dev nD) (t : Fin cfg1.N) (l : Fin 512) (q : Fin 1024) :
    blkY V c t (ix2 l q) = arrY V c (ix2 (Cert.Blocks.pos (kBlock t.val) l) (colOf t.val q)) := by
  obtain ⟨-, -, e0, e1, -, -⟩ := idx_facts t
  show V c main_v0 (((cfg1.win 1).blk t).view.emb (ix2 l q)) = V c main_v0 (ix2 (Cert.Blocks.pos (kBlock t.val) l) (colOf t.val q))
  congr 1
  funext a; apply Fin.ext
  match a with
  | ⟨0, _⟩ => show win1_1.index t (0 : Fin 2) * 512 + 1 * l.val = t.val % 8 * 512 + l.val; rw [e0]; omega
  | ⟨1, _⟩ => show win1_1.index t (1 : Fin 2) * 1024 + 1 * q.val = t.val / 8 % 2 * 1024 + q.val; rw [e1]; omega

/-- Summand `kk` of entry (r, s). -/
def term (W : Cert.Spec.Mat 4096 4096) (Y : Cert.Spec.Mat 4096 2048) (r : Fin 4096) (s : Fin 2048) (kk : Fin 4096) : EReal :=
  W (ix2 r kk) * Y (ix2 kk s)

theorem update_apply (c : Dev nD) (t : Fin cfg1.N) (xs : Vec Ideal S1024x1024 .f32) (p q : Fin 1024) :
    k1_pay2 (blkW V c t) (blkY V c t) xs (ix2 p q)
      = xs (ix2 p q) + ∑ l : Fin 512, term (arrW V c) (arrY V c) (rowOf t.val p) (colOf t.val q) (Cert.Blocks.pos (kBlock t.val) l) := by
  refine (pay2_apply (blkW V c t) (blkY V c t) xs p q).trans ?_
  refine congrArg (xs (ix2 p q) + ·) (Finset.sum_congr rfl fun l _ => ?_)
  rw [blkW_apply V c t p l, blkY_apply V c t l q]
  rfl

/-- After point `n`, entry (p, q) of the accumulator is the partial sum over the pieces done so far. -/
theorem sum_eq (c : Dev nD) (n : ℕ) (hn : n < cfg1.N) (p q : Fin 1024) :
    acc V c n hn (ix2 p q) = Cert.Blocks.partialSum (term (arrW V c) (arrY V c) (rowOf n p) (colOf n q)) (n % 8 + 1) :=
  Cert.Blocks.fold_eq (fun n hn => acc V c n hn (ix2 p q)) (fun n => term (arrW V c) (arrY V c) (rowOf n p) (colOf n q))
    (fun n h0 => by
      have er : rowOf n p = rowOf (n + 1) p := Fin.ext (by show n / 16 % 4 * 1024 + p.val = (n + 1) / 16 % 4 * 1024 + p.val; omega)
      have ec : colOf n q = colOf (n + 1) q := Fin.ext (by show n / 8 % 2 * 1024 + q.val = (n + 1) / 8 % 2 * 1024 + q.val; omega)
      rw [er, ec])
    (fun n h h0 => by
      rw [acc_first V c ⟨n, h⟩ h0]
      refine (update_apply V c ⟨n, h⟩ _ p q).trans ?_
      rw [pay1_apply])
    (fun n h h0 => by
      rw [acc_next V c ⟨n + 1, h⟩ h0]
      exact update_apply V c ⟨n + 1, h⟩ _ p q)
    n hn

/-- At a last piece the partial sum is the whole sum: the tile agrees with the product. -/
theorem flushed_eq (c : Dev nD) (t : Fin cfg1.N) (hf : (cfg1.win 2).flush t = true) :
    (dat (F := Ideal) V c).flushed 2 t
      = ((cfg1.win 2).blk t).view.read (Elt Ideal) (Cert.Spec.mul (arrW V c) (arrY V c)) := by
  have e8 : t.val % 8 + 1 = 8 := by have := (flush1_2 t).mp hf; omega
  obtain ⟨-, -, -, -, e0, e1⟩ := idx_facts t
  show (cfg1.win 2).cut (grid1.coords t) (acc V c t.val t.isLt) = _
  funext j
  obtain ⟨p, q, rfl⟩ : ∃ (p : Fin 1024) (q : Fin 1024), j = ix2 p q := ⟨j 0, j 1, eq_ix2 j⟩
  show acc V c t.val t.isLt (ix2 p q) = Cert.Spec.mul (arrW V c) (arrY V c) (((cfg1.win 2).blk t).view.emb (ix2 p q))
  rw [sum_eq V c t.val t.isLt p q, e8, Cert.Blocks.partialSum_eight]
  have r0 : ((cfg1.win 2).blk t).view.emb (ix2 p q) 0 = rowOf t.val p :=
    Fin.ext (by show win1_2.index t (0 : Fin 2) * 1024 + 1 * p.val = t.val / 16 % 4 * 1024 + p.val; rw [e0]; omega)
  have r1 : ((cfg1.win 2).blk t).view.emb (ix2 p q) 1 = colOf t.val q :=
    Fin.ext (by show win1_2.index t (1 : Fin 2) * 1024 + 1 * q.val = t.val / 8 % 2 * 1024 + q.val; rw [e1]; omega)
  unfold Cert.Spec.mul
  rw [r0, r1]
  rfl

theorem mem_blk (t : Fin cfg1.N) (i : S4096x2048.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- The tiles cover the output. -/
theorem cover (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  have hN : cfg1.N = 64 := N_1
  obtain ⟨t, ht⟩ : ∃ t : Fin cfg1.N, t.val = (i 0).val / 1024 * 16 + (i 1).val / 1024 * 8 + 7 :=
    ⟨⟨(i 0).val / 1024 * 16 + (i 1).val / 1024 * 8 + 7, by rw [hN]; omega⟩, rfl⟩
  obtain ⟨-, -, -, -, e0, e1⟩ := idx_facts t
  refine ⟨t, (flush1_2 t).mpr (by rw [ht]; omega), ?_⟩
  rw [mem_blk]
  intro a
  match a with
  | ⟨0, _⟩ =>
    show win1_2.index t (0 : Fin 2) * 1024 ≤ (i 0).val ∧ (i 0).val < win1_2.index t (0 : Fin 2) * 1024 + 1024
    rw [e0, ht]; omega
  | ⟨1, _⟩ =>
    show win1_2.index t (1 : Fin 2) * 1024 ≤ (i 1).val ∧ (i 1).val < win1_2.index t (1 : Fin 2) * 1024 + 1024
    rw [e1, ht]; omega

/-- The stage's output is the product of what it read. -/
theorem final (c : Dev nD) :
    (dat (F := Ideal) V c).arrAt 2 cfg1.N = Cert.Spec.mul (V c main_arg3) (V c main_v0) :=
  (dat (F := Ideal) V c).arrAt_eq_of_cover 2 (Cert.Spec.mul (V c main_arg3) (V c main_v0)) (fun t hf => flushed_eq V c t hf) cover

end Cert.KernelIdeal.R1

end
-- ==== Proof.KernelIdeal.R2.Value.lean ====
import proofs.«152358_j83777632076060_1_alg».proof.Proof.KernelIdeal.R2.Frame
import proofs.«152358_j83777632076060_1_alg».proof.Proof.KernelIdeal.Dot
import proofs.«152358_j83777632076060_1_alg».proof.Proof.Blocks
import proofs.«152358_j83777632076060_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

theorem pay1_apply (p q : Fin 1024) : (k2_pay1 (F := Ideal)) (ix2 p q) = 0 := by
  unfold k2_pay1
  refine (congrFun (shapeCast_self _ _) (ix2 p q)).trans ?_
  exact Ideal.ofBits_zero_f32

/-- Entrywise the update adds the block pair's 512 products to the old entry; narrowing the operands changes
    nothing at Ideal. -/
theorem pay2_apply (x0 : Vec Ideal S1024x512 .f32) (x1 : Vec Ideal S512x1024 .f32) (xs : Vec Ideal S1024x1024 .f32) (p q : Fin 1024) :
    k2_pay2 x0 x1 xs (ix2 p q) = xs (ix2 p q) + ∑ l : Fin 512, x0 (ix2 p l) * x1 (ix2 l q) := by
  unfold k2_pay2
  refine (congrFun (shapeCast_self _ _) (ix2 p q)).trans ?_
  refine (addf_apply _ _ _).trans ?_
  refine congrArg (xs (ix2 p q) + ·) ?_
  refine (Dot.mm_apply _ _ p q).trans ?_
  refine Finset.sum_congr rfl fun l _ => ?_
  rw [truncf_apply, truncf_apply, shapeCast_self]

variable (V : (c : Dev nD) → (b : Ref sig .tc) → Buf (Elt Ideal) ((c : Thread nD τ).loc b))

/-- Left factor. -/
abbrev arrW (c : Dev nD) : Cert.Spec.Mat 4096 4096 := V c main_arg2
/-- Right factor. -/
abbrev arrY (c : Dev nD) : Cert.Spec.Mat 4096 2048 := V c main_v1
abbrev blkW (c : Dev nD) (t : Fin cfg2.N) : Vec Ideal S1024x512 .f32 := iblk V c 0 t
abbrev blkY (c : Dev nD) (t : Fin cfg2.N) : Vec Ideal S512x1024 .f32 := iblk V c 1 t

/-- Grid point `n` works on row tile `n / 16 mod 4`, column tile `n / 8 mod 2` and piece `n mod 8`. -/
abbrev kBlock (n : ℕ) : Fin 8 := ⟨n % 8, Nat.mod_lt _ (by decide)⟩
def rowOf (n : ℕ) (p : Fin 1024) : Fin 4096 := ⟨n / 16 % 4 * 1024 + p.val, by have := p.isLt; omega⟩
def colOf (n : ℕ) (q : Fin 1024) : Fin 2048 := ⟨n / 8 % 2 * 1024 + q.val, by have := q.isLt; omega⟩

theorem idx_facts : ∀ t : Fin cfg2.N,
    win2_0.index t (0 : Fin 2) = t.val / 16 % 4 ∧ win2_0.index t (1 : Fin 2) = t.val % 8
    ∧ win2_1.index t (0 : Fin 2) = t.val % 8 ∧ win2_1.index t (1 : Fin 2) = t.val / 8 % 2
    ∧ win2_2.index t (0 : Fin 2) = t.val / 16 % 4 ∧ win2_2.index t (1 : Fin 2) = t.val / 8 % 2 :=
  (by decide +kernel : ∀ t : Fin grid2.N, _)

theorem blkW_apply (c : Dev nD) (t : Fin cfg2.N) (p : Fin 1024) (l : Fin 512) :
    blkW V c t (ix2 p l) = arrW V c (ix2 (rowOf t.val p) (Cert.Blocks.pos (kBlock t.val) l)) := by
  obtain ⟨e0, e1, -, -, -, -⟩ := idx_facts t
  show V c main_arg2 (((cfg2.win 0).blk t).view.emb (ix2 p l)) = V c main_arg2 (ix2 (rowOf t.val p) (Cert.Blocks.pos (kBlock t.val) l))
  congr 1
  funext a; apply Fin.ext
  match a with
  | ⟨0, _⟩ => show win2_0.index t (0 : Fin 2) * 1024 + 1 * p.val = t.val / 16 % 4 * 1024 + p.val; rw [e0]; omega
  | ⟨1, _⟩ => show win2_0.index t (1 : Fin 2) * 512 + 1 * l.val = t.val % 8 * 512 + l.val; rw [e1]; omega

theorem blkY_apply (c : Dev nD) (t : Fin cfg2.N) (l : Fin 512) (q : Fin 1024) :
    blkY V c t (ix2 l q) = arrY V c (ix2 (Cert.Blocks.pos (kBlock t.val) l) (colOf t.val q)) := by
  obtain ⟨-, -, e0, e1, -, -⟩ := idx_facts t
  show V c main_v1 (((cfg2.win 1).blk t).view.emb (ix2 l q)) = V c main_v1 (ix2 (Cert.Blocks.pos (kBlock t.val) l) (colOf t.val q))
  congr 1
  funext a; apply Fin.ext
  match a with
  | ⟨0, _⟩ => show win2_1.index t (0 : Fin 2) * 512 + 1 * l.val = t.val % 8 * 512 + l.val; rw [e0]; omega
  | ⟨1, _⟩ => show win2_1.index t (1 : Fin 2) * 1024 + 1 * q.val = t.val / 8 % 2 * 1024 + q.val; rw [e1]; omega

/-- Summand `kk` of entry (r, s). -/
def term (W : Cert.Spec.Mat 4096 4096) (Y : Cert.Spec.Mat 4096 2048) (r : Fin 4096) (s : Fin 2048) (kk : Fin 4096) : EReal :=
  W (ix2 r kk) * Y (ix2 kk s)

theorem update_apply (c : Dev nD) (t : Fin cfg2.N) (xs : Vec Ideal S1024x1024 .f32) (p q : Fin 1024) :
    k2_pay2 (blkW V c t) (blkY V c t) xs (ix2 p q)
      = xs (ix2 p q) + ∑ l : Fin 512, term (arrW V c) (arrY V c) (rowOf t.val p) (colOf t.val q) (Cert.Blocks.pos (kBlock t.val) l) := by
  refine (pay2_apply (blkW V c t) (blkY V c t) xs p q).trans ?_
  refine congrArg (xs (ix2 p q) + ·) (Finset.sum_congr rfl fun l _ => ?_)
  rw [blkW_apply V c t p l, blkY_apply V c t l q]
  rfl

/-- After point `n`, entry (p, q) of the accumulator is the partial sum over the pieces done so far. -/
theorem sum_eq (c : Dev nD) (n : ℕ) (hn : n < cfg2.N) (p q : Fin 1024) :
    acc V c n hn (ix2 p q) = Cert.Blocks.partialSum (term (arrW V c) (arrY V c) (rowOf n p) (colOf n q)) (n % 8 + 1) :=
  Cert.Blocks.fold_eq (fun n hn => acc V c n hn (ix2 p q)) (fun n => term (arrW V c) (arrY V c) (rowOf n p) (colOf n q))
    (fun n h0 => by
      have er : rowOf n p = rowOf (n + 1) p := Fin.ext (by show n / 16 % 4 * 1024 + p.val = (n + 1) / 16 % 4 * 1024 + p.val; omega)
      have ec : colOf n q = colOf (n + 1) q := Fin.ext (by show n / 8 % 2 * 1024 + q.val = (n + 1) / 8 % 2 * 1024 + q.val; omega)
      rw [er, ec])
    (fun n h h0 => by
      rw [acc_first V c ⟨n, h⟩ h0]
      refine (update_apply V c ⟨n, h⟩ _ p q).trans ?_
      rw [pay1_apply])
    (fun n h h0 => by
      rw [acc_next V c ⟨n + 1, h⟩ h0]
      exact update_apply V c ⟨n + 1, h⟩ _ p q)
    n hn

/-- At a last piece the partial sum is the whole sum: the tile agrees with the product. -/
theorem flushed_eq (c : Dev nD) (t : Fin cfg2.N) (hf : (cfg2.win 2).flush t = true) :
    (dat (F := Ideal) V c).flushed 2 t
      = ((cfg2.win 2).blk t).view.read (Elt Ideal) (Cert.Spec.mul (arrW V c) (arrY V c)) := by
  have e8 : t.val % 8 + 1 = 8 := by have := (flush2_2 t).mp hf; omega
  obtain ⟨-, -, -, -, e0, e1⟩ := idx_facts t
  show (cfg2.win 2).cut (grid2.coords t) (acc V c t.val t.isLt) = _
  funext j
  obtain ⟨p, q, rfl⟩ : ∃ (p : Fin 1024) (q : Fin 1024), j = ix2 p q := ⟨j 0, j 1, eq_ix2 j⟩
  show acc V c t.val t.isLt (ix2 p q) = Cert.Spec.mul (arrW V c) (arrY V c) (((cfg2.win 2).blk t).view.emb (ix2 p q))
  rw [sum_eq V c t.val t.isLt p q, e8, Cert.Blocks.partialSum_eight]
  have r0 : ((cfg2.win 2).blk t).view.emb (ix2 p q) 0 = rowOf t.val p :=
    Fin.ext (by show win2_2.index t (0 : Fin 2) * 1024 + 1 * p.val = t.val / 16 % 4 * 1024 + p.val; rw [e0]; omega)
  have r1 : ((cfg2.win 2).blk t).view.emb (ix2 p q) 1 = colOf t.val q :=
    Fin.ext (by show win2_2.index t (1 : Fin 2) * 1024 + 1 * q.val = t.val / 8 % 2 * 1024 + q.val; rw [e1]; omega)
  unfold Cert.Spec.mul
  rw [r0, r1]
  rfl

theorem mem_blk (t : Fin cfg2.N) (i : S4096x2048.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

/-- The tiles cover the output. -/
theorem cover (i : S4096x2048.Idx) :
    ∃ t : Fin cfg2.N, (cfg2.win 2).flush t = true ∧ i ∈ ((cfg2.win 2).blk t).view.set := by
  have hi0 : (i 0).val < 4096 := (i 0).isLt
  have hi1 : (i 1).val < 2048 := (i 1).isLt
  have hN : cfg2.N = 64 := N_2
  obtain ⟨t, ht⟩ : ∃ t : Fin cfg2.N, t.val = (i 0).val / 1024 * 16 + (i 1).val / 1024 * 8 + 7 :=
    ⟨⟨(i 0).val / 1024 * 16 + (i 1).val / 1024 * 8 + 7, by rw [hN]; omega⟩, rfl⟩
  obtain ⟨-, -, -, -, e0, e1⟩ := idx_facts t
  refine ⟨t, (flush2_2 t).mpr (by rw [ht]; omega), ?_⟩
  rw [mem_blk]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 1024 ≤ (i 1).val ∧ (i 1).val < win2_2.index t (1 : Fin 2) * 1024 + 1024
    rw [e1, ht]; omega

/-- The stage's output is the product of what it read. -/
theorem final (c : Dev nD) :
    (dat (F := Ideal) V c).arrAt 2 cfg2.N = Cert.Spec.mul (V c main_arg2) (V c main_v1) :=
  (dat (F := Ideal) V c).arrAt_eq_of_cover 2 (Cert.Spec.mul (V c main_arg2) (V c main_v1)) (fun t hf => flushed_eq V c t hf) cover

end Cert.KernelIdeal.R2

end
-- ==== Proof.KernelIdeal.R3.Value.lean ====
import proofs.«152358_j83777632076060_1_alg».proof.Proof.KernelIdeal.R3.Frame
import proofs.«152358_j83777632076060_1_alg».proof.Proof.KernelIdeal.Dot
import proofs.«152358_j83777632076060_1_alg».proof.Proof.Blocks
import proofs.«152358_j83777632076060_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx

theorem pay1_apply (p q : Fin 1024) : (k3_pay1 (F := Ideal)) (ix2 p q) = 0 := by
  unfold k3_pay1
  refine (congrFun (shapeCast_self _ _) (ix2 p q)).trans ?_
  exact Ideal.ofBits_zero_f32

/-- Entrywise the update adds the block pair's 512 products to the old entry; narrowing the operands changes
    nothing at Ideal. -/
theorem pay2_apply (x0 : Vec Ideal S1024x512 .f32) (x1 : Vec Ideal S512x1024 .f32) (xs : Vec Ideal S1024x1024 .f32) (p q : Fin 1024) :
    k3_pay2 x0 x1 xs (ix2 p q) = xs (ix2 p q) + ∑ l : Fin 512, x0 (ix2 p l) * x1 (ix2 l q) := by
  unfold k3_pay2
  refine (congrFun (shapeCast_self _ _) (ix2 p q)).trans ?_
  refine (addf_apply _ _ _).trans ?_
  refine congrArg (xs (ix2 p q) + ·) ?_
  refine (Dot.mm_apply _ _ p q).trans ?_
  refine Finset.sum_congr rfl fun l _ => ?_
  rw [truncf_apply, truncf_apply, shapeCast_self]

theorem col_cast_apply {α : Type} (v : S1024.Idx → α) (h : S1024.ShapeCasts S1024x1) (b : Fin 1024) (u : Fin 1) :
    shapeCast S1024x1 v h (ix2 b u) = v (ix1 b) :=
  shapeCast_apply v h _ _ (by
    have hu : u.val = 0 := by omega
    rw [Shape.rowMajor_val_two, Shape.rowMajor_val_one]
    show b.val = b.val * 1 + u.val
    rw [hu]; omega)

theorem col_bcast_apply {α : Type} (v : S1024x1.Idx → α) (h : S1024x1.Broadcasts S1024x1024) (b a : Fin 1024) :
    broadcastTo S1024x1024 v h (ix2 b a) = v (ix2 b (0 : Fin 1)) := by
  refine broadcastTo_apply v h (ix2 b a) (ix2 b (0 : Fin 1)) fun ax => ?_
  match ax with
  | ⟨0, _⟩ => show b.val = if (1024 : Nat) = 1 then 0 else b.val; rw [if_neg (by decide)]
  | ⟨1, _⟩ => show 0 = if (1 : Nat) = 1 then 0 else a.val; rw [if_pos rfl]

/-- Entry (a, b) of what the last piece stores: the accumulator at (b, a) plus the bias at b. -/
theorem pay3_apply (x2 : Vec Ideal S1024 .f32) (xs : Vec Ideal S1024x1024 .f32) (a b : Fin 1024) :
    k3_pay3 x2 xs (ix2 a b) = xs (ix2 b a) + x2 (ix1 b) := by
  unfold k3_pay3
  refine (transpose_ix2_apply _ _ a b).trans ?_
  refine (addf_apply _ _ _).trans ?_
  refine congrArg (xs (ix2 b a) + ·) ?_
  refine (col_bcast_apply _ _ b a).trans ?_
  exact col_cast_apply _ _ b 0

variable (V : (c : Dev nD) → (b : Ref sig .tc) → Buf (Elt Ideal) ((c : Thread nD τ).loc b))

abbrev arrW (c : Dev nD) : Cert.Spec.Mat 4096 4096 := V c main_arg1
abbrev arrY (c : Dev nD) : Cert.Spec.Mat 4096 2048 := V c main_v2
abbrev arrB (c : Dev nD) : Cert.Spec.Vec1 4096 := V c main_arg5
abbrev blkW (c : Dev nD) (t : Fin cfg3.N) : Vec Ideal S1024x512 .f32 := iblk V c 0 t
abbrev blkY (c : Dev nD) (t : Fin cfg3.N) : Vec Ideal S512x1024 .f32 := iblk V c 1 t
abbrev blkB (c : Dev nD) (t : Fin cfg3.N) : Vec Ideal S1024 .f32 := iblk V c 2 t

/-- Grid point `n` works on row tile `n / 16 mod 4`, column tile `n / 8 mod 2` and piece `n mod 8`. -/
abbrev kBlock (n : ℕ) : Fin 8 := ⟨n % 8, Nat.mod_lt _ (by decide)⟩

def rowOf (n : ℕ) (p : Fin 1024) : Fin 4096 := ⟨n / 16 % 4 * 1024 + p.val, by have := p.isLt; omega⟩
def colOf (n : ℕ) (q : Fin 1024) : Fin 2048 := ⟨n / 8 % 2 * 1024 + q.val, by have := q.isLt; omega⟩

theorem idx_facts : ∀ t : Fin cfg3.N,
    win3_0.index t (0 : Fin 2) = t.val / 16 % 4 ∧ win3_0.index t (1 : Fin 2) = t.val % 8
    ∧ win3_1.index t (0 : Fin 2) = t.val % 8 ∧ win3_1.index t (1 : Fin 2) = t.val / 8 % 2
    ∧ win3_2.index t (0 : Fin 1) = t.val / 16 % 4
    ∧ win3_3.index t (0 : Fin 2) = t.val / 8 % 2 ∧ win3_3.index t (1 : Fin 2) = t.val / 16 % 4 :=
  (by decide +kernel : ∀ t : Fin grid3.N, _)

theorem blkW_apply (c : Dev nD) (t : Fin cfg3.N) (p : Fin 1024) (l : Fin 512) :
    blkW V c t (ix2 p l) = arrW V c (ix2 (rowOf t.val p) (Cert.Blocks.pos (kBlock t.val) l)) := by
  obtain ⟨e0, e1, -, -, -, -, -⟩ := idx_facts t
  show V c main_arg1 (((cfg3.win 0).blk t).view.emb (ix2 p l)) = V c main_arg1 (ix2 (rowOf t.val p) (Cert.Blocks.pos (kBlock t.val) l))
  congr 1
  funext a; apply Fin.ext
  match a with
  | ⟨0, _⟩ => show win3_0.index t (0 : Fin 2) * 1024 + 1 * p.val = t.val / 16 % 4 * 1024 + p.val; rw [e0]; omega
  | ⟨1, _⟩ => show win3_0.index t (1 : Fin 2) * 512 + 1 * l.val = t.val % 8 * 512 + l.val; rw [e1]; omega

theorem blkY_apply (c : Dev nD) (t : Fin cfg3.N) (l : Fin 512) (q : Fin 1024) :
    blkY V c t (ix2 l q) = arrY V c (ix2 (Cert.Blocks.pos (kBlock t.val) l) (colOf t.val q)) := by
  obtain ⟨-, -, e0, e1, -, -, -⟩ := idx_facts t
  show V c main_v2 (((cfg3.win 1).blk t).view.emb (ix2 l q)) = V c main_v2 (ix2 (Cert.Blocks.pos (kBlock t.val) l) (colOf t.val q))
  congr 1
  funext a; apply Fin.ext
  match a with
  | ⟨0, _⟩ => show win3_1.index t (0 : Fin 2) * 512 + 1 * l.val = t.val % 8 * 512 + l.val; rw [e0]; omega
  | ⟨1, _⟩ => show win3_1.index t (1 : Fin 2) * 1024 + 1 * q.val = t.val / 8 % 2 * 1024 + q.val; rw [e1]; omega

theorem blkB_apply (c : Dev nD) (t : Fin cfg3.N) (p : Fin 1024) :
    blkB V c t (ix1 p) = arrB V c (ix1 (rowOf t.val p)) := by
  obtain ⟨-, -, -, -, e0, -, -⟩ := idx_facts t
  show V c main_arg5 (((cfg3.win 2).blk t).view.emb (ix1 p)) = V c main_arg5 (ix1 (rowOf t.val p))
  congr 1
  funext a; apply Fin.ext
  match a with
  | ⟨0, _⟩ => show win3_2.index t (0 : Fin 1) * 1024 + 1 * p.val = t.val / 16 % 4 * 1024 + p.val; rw [e0]; omega

/-- Summand `kk` of entry (r, s). -/
def term (W : Cert.Spec.Mat 4096 4096) (Y : Cert.Spec.Mat 4096 2048) (r : Fin 4096) (s : Fin 2048) (kk : Fin 4096) : EReal :=
  W (ix2 r kk) * Y (ix2 kk s)

theorem update_apply (c : Dev nD) (t : Fin cfg3.N) (xs : Vec Ideal S1024x1024 .f32) (p q : Fin 1024) :
    k3_pay2 (blkW V c t) (blkY V c t) xs (ix2 p q)
      = xs (ix2 p q) + ∑ l : Fin 512, term (arrW V c) (arrY V c) (rowOf t.val p) (colOf t.val q) (Cert.Blocks.pos (kBlock t.val) l) := by
  refine (pay2_apply (blkW V c t) (blkY V c t) xs p q).trans ?_
  refine congrArg (xs (ix2 p q) + ·) (Finset.sum_congr rfl fun l _ => ?_)
  rw [blkW_apply V c t p l, blkY_apply V c t l q]
  rfl

/-- After point `n`, entry (p, q) of the accumulator is the partial sum over the pieces done so far. -/
theorem sum_eq (c : Dev nD) (n : ℕ) (hn : n < cfg3.N) (p q : Fin 1024) :
    acc V c n hn (ix2 p q) = Cert.Blocks.partialSum (term (arrW V c) (arrY V c) (rowOf n p) (colOf n q)) (n % 8 + 1) :=
  Cert.Blocks.fold_eq (fun n hn => acc V c n hn (ix2 p q)) (fun n => term (arrW V c) (arrY V c) (rowOf n p) (colOf n q))
    (fun n h0 => by
      have er : rowOf n p = rowOf (n + 1) p := Fin.ext (by show n / 16 % 4 * 1024 + p.val = (n + 1) / 16 % 4 * 1024 + p.val; omega)
      have ec : colOf n q = colOf (n + 1) q := Fin.ext (by show n / 8 % 2 * 1024 + q.val = (n + 1) / 8 % 2 * 1024 + q.val; omega)
      rw [er, ec])
    (fun n h h0 => by
      rw [acc_first V c ⟨n, h⟩ h0]
      refine (update_apply V c ⟨n, h⟩ _ p q).trans ?_
      rw [pay1_apply])
    (fun n h h0 => by
      rw [acc_next V c ⟨n + 1, h⟩ h0]
      exact update_apply V c ⟨n + 1, h⟩ _ p q)
    n hn

/-- At a last piece the partial sum is the whole sum: the tile agrees with the transposed product plus the bias. -/
theorem flushed_eq (c : Dev nD) (t : Fin cfg3.N) (hf : (cfg3.win 3).flush t = true) :
    (dat (F := Ideal) V c).flushed 3 t
      = ((cfg3.win 3).blk t).view.read (Elt Ideal) (Cert.Spec.mulTAdd (arrW V c) (arrY V c) (arrB V c)) := by
  have e8 : t.val % 8 + 1 = 8 := by have := (flush3_3 t).mp hf; omega
  obtain ⟨-, -, -, -, -, e0, e1⟩ := idx_facts t
  show (cfg3.win 3).cut (grid3.coords t) (k3_pay3 (blkB V c t) (acc V c t.val t.isLt)) = _
  funext j
  obtain ⟨a, b, rfl⟩ : ∃ (a : Fin 1024) (b : Fin 1024), j = ix2 a b := ⟨j 0, j 1, eq_ix2 j⟩
  show k3_pay3 (blkB V c t) (acc V c t.val t.isLt) (ix2 a b) = Cert.Spec.mulTAdd (arrW V c) (arrY V c) (arrB V c) (((cfg3.win 3).blk t).view.emb (ix2 a b))
  rw [pay3_apply, sum_eq V c t.val t.isLt b a, e8, Cert.Blocks.partialSum_eight, blkB_apply V c t b]
  have r0 : ((cfg3.win 3).blk t).view.emb (ix2 a b) 0 = colOf t.val a :=
    Fin.ext (by show win3_3.index t (0 : Fin 2) * 1024 + 1 * a.val = t.val / 8 % 2 * 1024 + a.val; rw [e0]; omega)
  have r1 : ((cfg3.win 3).blk t).view.emb (ix2 a b) 1 = rowOf t.val b :=
    Fin.ext (by show win3_3.index t (1 : Fin 2) * 1024 + 1 * b.val = t.val / 16 % 4 * 1024 + b.val; rw [e1]; omega)
  unfold Cert.Spec.mulTAdd
  rw [r0, r1]
  rfl

theorem mem_blk (t : Fin cfg3.N) (i : S2048x4096.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v3).slice (win3_3.rect t)).set ↔ _
  rw [View.set_slice_whole, Rect.mem_set_unit]
  exact Iff.rfl

/-- The tiles cover the output. -/
theorem cover (i : S2048x4096.Idx) :
    ∃ t : Fin cfg3.N, (cfg3.win 3).flush t = true ∧ i ∈ ((cfg3.win 3).blk t).view.set := by
  have hi0 : (i 0).val < 2048 := (i 0).isLt
  have hi1 : (i 1).val < 4096 := (i 1).isLt
  have hN : cfg3.N = 64 := N_3
  obtain ⟨t, ht⟩ : ∃ t : Fin cfg3.N, t.val = (i 1).val / 1024 * 16 + (i 0).val / 1024 * 8 + 7 :=
    ⟨⟨(i 1).val / 1024 * 16 + (i 0).val / 1024 * 8 + 7, by rw [hN]; omega⟩, rfl⟩
  obtain ⟨-, -, -, -, -, e0, e1⟩ := idx_facts t
  refine ⟨t, (flush3_3 t).mpr (by rw [ht]; omega), ?_⟩
  rw [mem_blk]
  intro a
  match a with
  | ⟨0, _⟩ =>
    show win3_3.index t (0 : Fin 2) * 1024 ≤ (i 0).val ∧ (i 0).val < win3_3.index t (0 : Fin 2) * 1024 + 1024
    rw [e0, ht]; omega
  | ⟨1, _⟩ =>
    show win3_3.index t (1 : Fin 2) * 1024 ≤ (i 1).val ∧ (i 1).val < win3_3.index t (1 : Fin 2) * 1024 + 1024
    rw [e1, ht]; omega

/-- The stage's output is the transposed product plus the bias. -/
theorem final (V : (c : Dev nD) → (b : Ref sig .tc) → Buf (Elt Ideal) ((c : Thread nD τ).loc b)) (c : Dev nD) :
    (dat (F := Ideal) V c).arrAt 3 cfg3.N = Cert.Spec.mulTAdd (V c main_arg1) (V c main_v2) (V c main_arg5) :=
  (dat (F := Ideal) V c).arrAt_eq_of_cover 3 (Cert.Spec.mulTAdd (V c main_arg1) (V c main_v2) (V c main_arg5)) (fun t hf => flushed_eq V c t hf) cover

end Cert.KernelIdeal.R3

end
-- ==== Proof.KernelIdeal.Chain.lean ====
import proofs.«152358_j83777632076060_1_alg».proof.Proof.KernelIdeal.Asm
import proofs.«152358_j83777632076060_1_alg».proof.Proof.KernelIdeal.R0.Value
import proofs.«152358_j83777632076060_1_alg».proof.Proof.KernelIdeal.R1.Value
import proofs.«152358_j83777632076060_1_alg».proof.Proof.KernelIdeal.R2.Value
import proofs.«152358_j83777632076060_1_alg».proof.Proof.KernelIdeal.R3.Value

set_option maxRecDepth 16384

noncomputable section

namespace Cert.KernelIdeal.Asm

open Idealize.ShloMosaic Idealize.ShloMosaic.TcCoe
open Idealize.SL Idealize.SL.Sem
open Cert.KernelIdeal Cert.KernelIdeal.Gen

variable (m : (ℓ : Loc nD τ sig) → Buf (Elt Ideal) ℓ)

theorem V1_main_arg3 (c : Dev nD) : V1 m c main_arg3 = m ((c : Thread nD τ).loc main_arg3) :=
  W1_of_ne m c main_arg3 (by decide)
theorem V2_main_arg2 (c : Dev nD) : V2 m c main_arg2 = m ((c : Thread nD τ).loc main_arg2) :=
  (W2_of_ne m c main_arg2 (by decide)).trans (W1_of_ne m c main_arg2 (by decide))
theorem V3_main_arg1 (c : Dev nD) : V3 m c main_arg1 = m ((c : Thread nD τ).loc main_arg1) :=
  (W3_of_ne m c main_arg1 (by decide)).trans ((W2_of_ne m c main_arg1 (by decide)).trans (W1_of_ne m c main_arg1 (by decide)))
theorem V3_main_arg5 (c : Dev nD) : V3 m c main_arg5 = m ((c : Thread nD τ).loc main_arg5) :=
  (W3_of_ne m c main_arg5 (by decide)).trans ((W2_of_ne m c main_arg5 (by decide)).trans (W1_of_ne m c main_arg5 (by decide)))

/-- What a stage takes as its right factor is what the stage before produced. -/
theorem V1_main_v0 (c : Dev nD) :
    V1 m c main_v0 = Cert.Spec.mulT (m ((c : Thread nD τ).loc main_arg4)) (m ((c : Thread nD τ).loc main_arg0)) :=
  (W1_arr m c 2).trans (R0.final (V0 m) c)

theorem V2_main_v1 (c : Dev nD) :
    V2 m c main_v1 = Cert.Spec.mul (m ((c : Thread nD τ).loc main_arg3)) (V1 m c main_v0) :=
  (W2_arr m c 2).trans ((R1.final (V1 m) c).trans (by rw [V1_main_arg3]))

theorem V3_main_v2 (c : Dev nD) :
    V3 m c main_v2 = Cert.Spec.mul (m ((c : Thread nD τ).loc main_arg2)) (V2 m c main_v1) :=
  (W3_arr m c 2).trans ((R2.final (V2 m) c).trans (by rw [V2_main_arg2]))

/-- The four stages compose to `Spec.chain`. -/
theorem result_eq (c : Dev nD) :
    (R3.dat (F := Ideal) (V3 m) c).arrAt 3 cfg3.N
      = Cert.Spec.chain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [R3.final (V3 m) c, V3_main_arg1, V3_main_arg5, V3_main_v2, V2_main_v1, V1_main_v0]
  rfl

end Cert.KernelIdeal.Asm

end
-- ==== Proof.RefSpec.lean ====
import proofs.«152358_j83777632076060_1_alg».proof.Proof.Spec
import proofs.«152358_j83777632076060_1_alg».proof.Proof.Gen.ReferenceIdeal.Read

noncomputable section

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Left index of a product, by coordinates. -/
theorem lidx_eq (i : S4096x2048.Idx) (k : Fin 4096) :
    lidx_main_v1 i k = ix2 (n0 := 4096) (n1 := 4096) (i 0) k :=
  funext fun a => Fin.ext (by match a with | ⟨0, _⟩ => rfl | ⟨1, _⟩ => rfl)

/-- Right index of a product, by coordinates. -/
theorem ridx_eq (i : S4096x2048.Idx) (k : Fin 4096) :
    ridx_main_v1 i k = ix2 (n0 := 4096) (n1 := 2048) k (i 1) :=
  funext fun a => Fin.ext (by match a with | ⟨0, _⟩ => rfl | ⟨1, _⟩ => rfl)

/-- Index into U under the transpose and the first product. -/
theorem idx_v0_eq (i : S4096x2048.Idx) (k : Fin 4096) :
    idx_main_v0 (ridx_main_v1 i k) = ix2 (n0 := 2048) (n1 := 4096) (i 1) k :=
  funext fun a => Fin.ext (by match a with | ⟨0, _⟩ => rfl | ⟨1, _⟩ => rfl)

theorem v1_eq (x0 : (⟨S2048x4096, .f32⟩ : BufTy).Contents (Elt Ideal)) (x4 : (⟨S4096x4096, .f32⟩ : BufTy).Contents (Elt Ideal)) :
    val_main_v1 (F := Ideal) x0 x4 = Cert.Spec.mulT x4 x0 := by
  funext i
  rw [val_main_v1_apply]
  unfold Cert.Spec.mulT
  refine Finset.sum_congr rfl fun k _ => ?_
  rw [val_main_v0_apply, lidx_eq, idx_v0_eq]

theorem v2_eq (x0 : (⟨S2048x4096, .f32⟩ : BufTy).Contents (Elt Ideal)) (x3 x4 : (⟨S4096x4096, .f32⟩ : BufTy).Contents (Elt Ideal)) :
    val_main_v2 (F := Ideal) x0 x3 x4 = Cert.Spec.mul x3 (val_main_v1 (F := Ideal) x0 x4) := by
  funext i
  rw [val_main_v2_apply]
  unfold Cert.Spec.mul
  refine Finset.sum_congr rfl fun k _ => ?_
  rw [show lidx_main_v2 i k = lidx_main_v1 i k from rfl, show ridx_main_v2 i k = ridx_main_v1 i k from rfl, lidx_eq, ridx_eq]

theorem v3_eq (x0 : (⟨S2048x4096, .f32⟩ : BufTy).Contents (Elt Ideal)) (x2 x3 x4 : (⟨S4096x4096, .f32⟩ : BufTy).Contents (Elt Ideal)) :
    val_main_v3 (F := Ideal) x0 x2 x3 x4 = Cert.Spec.mul x2 (val_main_v2 (F := Ideal) x0 x3 x4) := by
  funext i
  rw [val_main_v3_apply]
  unfold Cert.Spec.mul
  refine Finset.sum_congr rfl fun k _ => ?_
  rw [show lidx_main_v3 i k = lidx_main_v1 i k from rfl, show ridx_main_v3 i k = ridx_main_v1 i k from rfl, lidx_eq, ridx_eq]

/-- Operation by operation the reference is the specification. -/
theorem ref_is_chain (x0 : (⟨S2048x4096, .f32⟩ : BufTy).Contents (Elt Ideal)) (x1 x2 x3 x4 : (⟨S4096x4096, .f32⟩ : BufTy).Contents (Elt Ideal)) (x5 : (⟨S4096, .f32⟩ : BufTy).Contents (Elt Ideal)) :
    Cert.ReferenceIdeal.Read.val_main_v8 (F := Ideal) x0 x1 x2 x3 x4 x5 = Cert.Spec.chain x0 x1 x2 x3 x4 x5 := by
  funext i
  rw [val_main_v8_apply, val_main_v5_apply, val_main_v7_apply, val_main_v6_apply, val_main_v4_apply, Ideal.addf_def]
  unfold Cert.Spec.chain Cert.Spec.mulTAdd
  rw [v3_eq, v2_eq, v1_eq]
  congr 1
  · refine Finset.sum_congr rfl fun k _ => ?_
    congr 2
    · exact funext fun a => Fin.ext (by match a with | ⟨0, _⟩ => rfl | ⟨1, _⟩ => rfl)
    · exact funext fun a => Fin.ext (by match a with | ⟨0, _⟩ => rfl | ⟨1, _⟩ => rfl)
  · congr 1
    exact funext fun a => Fin.ext (by match a with | ⟨0, _⟩ => rfl)

end Cert.RefSpec

end
-- ==== Proof.lean ====
/-
  result = (W0 · (W1 · (W2 · (W3 · Uᵀ))))ᵀ + bias. The kernel forms each of the four products tile by tile, cutting the
  contracted axis into eight pieces and adding the pieces' products one after another; the reference forms whole
  products. Regrouping a finite sum uses only associativity and commutativity of addition, which the extended reals
  have, so the inputs' finiteness is never needed.
-/
import proofs.«152358_j83777632076060_1_alg».proof.Defs
import proofs.«152358_j83777632076060_1_alg».proof.Proof.Gen.Kernel
import proofs.«152358_j83777632076060_1_alg».proof.Proof.Gen.KernelIdeal
import proofs.«152358_j83777632076060_1_alg».proof.Proof.Gen.ReferenceIdeal
import proofs.«152358_j83777632076060_1_alg».proof.Proof.Gen.Pre_finite_inputs
import proofs.«152358_j83777632076060_1_alg».proof.Proof.Gen.ReferenceIdeal.Run
import proofs.«152358_j83777632076060_1_alg».proof.Proof.Gen.ReferenceIdeal.Read
import proofs.«152358_j83777632076060_1_alg».proof.Proof.Kernel.Asm
import proofs.«152358_j83777632076060_1_alg».proof.Proof.KernelIdeal.Asm
import proofs.«152358_j83777632076060_1_alg».proof.Proof.KernelIdeal.Chain
import proofs.«152358_j83777632076060_1_alg».proof.Proof.RefSpec
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Asm.frame m ρ

theorem frame_ki [Cert.KernelIdeal.Facts] [Cert.Pre_finite_inputs.Facts] : Cert.frame_KernelIdeal :=
  fun m ρ _ => Cert.KernelIdeal.Asm.frame m ρ

/-- A run that names the result also leaves the arguments alone. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Kernel and reference end at the same function, `Spec.chain`, of arguments that agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.Spec.chain (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Asm.result_eq m c), (h c).2⟩)
      (Cert.KernelIdeal.Asm.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v8_eq, Cert.RefSpec.ref_is_chain,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
